-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S5x128x128 : Shape := ⟨3, ![5, 128, 128]⟩
abbrev S5x128 : Shape := ⟨2, ![5, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_v13 : IVec S_ 1) (main_v15 : IVec S600000 32) (main_v16 : IVec S600000 32) : IVec S_ 1 :=
  let main_v17 : IVec S600000 1 := cmpi .sge main_v15 main_v16
  let main_c_5 : IVec S_ 1 := constantI S_ 1 1#1
  let main_v18 : IVec S_ 1 := (fun x v => Host.reduce IntOp.andi x v reducesTo_S600000_S_d0 h_S_) main_v17 main_c_5
  let main_v19 : IVec S_ 1 := andi main_v13 main_v18
  main_v19

def fn {F : FTy → Type} [FloatOps F] (main_arg0 : FVec F S50000x128 .f32) (main_arg1 : IVec S2x600000 32) (main_arg2 : IVec S50000 32) (main_arg3 : FVec F S5x128x128 .f32) (main_arg4 : FVec F S5x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : IVec S1x600000 32 := (extractStridedSlice S1x600000 ![1, 0] · slices_S2x600000_S1x600000_1_0) main_arg1
  let main_v15 : IVec S600000 32 := shapeCast S600000 main_v14 shapeCasts_S1x600000_S600000
  let main_c_4 : IVec S_ 32 := constantI S_ 32 0#32
  let main_v16 : IVec S600000 32 := broadcastInDim S600000 ![] bcast_S_S600000 main_c_4
  fn_part1 (F := F) main_v13 main_v15 main_v16
-- ==== Kernel.lean ====
abbrev S50000x128 : Shape := ⟨2, ![50000, 128]⟩
abbrev S2x600000 : Shape := ⟨2, ![2, 600000]⟩
abbrev S50000 : Shape := ⟨1, ![50000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128x128 : Shape := ⟨3, ![1, 128, 128]⟩
abbrev S128x128 : Shape := ⟨2, ![128, 128]⟩
abbrev S5000x128 : Shape := ⟨2, ![5000, 128]⟩
abbrev S650000x128 : Shape := ⟨2, ![650000, 128]⟩
abbrev S1x128 : Shape := ⟨2, ![1, 128]⟩
abbrev S128 : Shape := ⟨1, ![128]⟩
abbrev S512x128 : Shape := ⟨2, ![512, 128]⟩
abbrev S50000x1 : Shape := ⟨2, ![50000, 1]⟩
abbrev S512x640 : Shape := ⟨2, ![512, 640]⟩

abbrev nBuf : Space → Nat
  | .hbm => 171
  | .vmem => 50
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S5x128x128, .f32⟩
  | 4 => ⟨S5x128, .f32⟩
  | 5 => ⟨S50000, .i32⟩
  | 6 => ⟨S1x600000, .i32⟩
  | 7 => ⟨S600000, .i32⟩
  | 8 => ⟨S650000, .i32⟩
  | 9 => ⟨S1x600000, .i32⟩
  | 10 => ⟨S600000, .i32⟩
  | 11 => ⟨S650000, .i32⟩
  | 12 => ⟨S_, .f32⟩
  | 13 => ⟨S650000, .f32⟩
  | 14 => ⟨S_, .f32⟩
  | 15 => ⟨S50000, .f32⟩
  | 16 => ⟨S650000x1, .i32⟩
  | 17 => ⟨S50000, .f32⟩
  | 18 => ⟨S50000, .f32⟩
  | 19 => ⟨S_, .i32⟩
  | 20 => ⟨S650000, .i32⟩
  | 21 => ⟨S650000, .i1⟩
  | 22 => ⟨S_, .i32⟩
  | 23 => ⟨S650000, .i32⟩
  | 24 => ⟨S650000, .i32⟩
  | 25 => ⟨S650000, .i32⟩
  | 26 => ⟨S650000x1, .i32⟩
  | 27 => ⟨S650000, .f32⟩
  | 28 => ⟨S_, .i32⟩
  | 29 => ⟨S650000, .i32⟩
  | 30 => ⟨S650000, .i1⟩
  | 31 => ⟨S_, .i32⟩
  | 32 => ⟨S650000, .i32⟩
  | 33 => ⟨S650000, .i32⟩
  | 34 => ⟨S650000, .i32⟩
  | 35 => ⟨S650000x1, .i32⟩
  | 36 => ⟨S650000, .f32⟩
  | 37 => ⟨S650000, .f32⟩
  | 38 => ⟨S650000x1, .f32⟩
  | 39 => ⟨S5x128x128, .bf16⟩
  | 40 => ⟨S1x128x128, .bf16⟩
  | 41 => ⟨S128x128, .bf16⟩
  | 42 => ⟨S50000x128, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000x128, .f32⟩
  | 52 => ⟨S650000x128, .f32⟩
  | 53 => ⟨S650000x128, .f32⟩
  | 54 => ⟨S_, .f32⟩
  | 55 => ⟨S50000x128, .f32⟩
  | 56 => ⟨S650000x1, .i32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S1x128x128, .bf16⟩
  | 63 => ⟨S128x128, .bf16⟩
  | 64 => ⟨S50000x128, .f32⟩
  | 65 => ⟨S_, .i32⟩
  | 66 => ⟨S650000, .i32⟩
  | 67 => ⟨S650000, .i1⟩
  | 68 => ⟨S_, .i32⟩
  | 69 => ⟨S650000, .i32⟩
  | 70 => ⟨S650000, .i32⟩
  | 71 => ⟨S650000, .i32⟩
  | 72 => ⟨S650000x1, .i32⟩
  | 73 => ⟨S650000x128, .f32⟩
  | 74 => ⟨S650000x128, .f32⟩
  | 75 => ⟨S650000x128, .f32⟩
  | 76 => ⟨S_, .f32⟩
  | 77 => ⟨S50000x128, .f32⟩
  | 78 => ⟨S650000x1, .i32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S1x128x128, .bf16⟩
  | 85 => ⟨S128x128, .bf16⟩
  | 86 => ⟨S50000x128, .f32⟩
  | 87 => ⟨S_, .i32⟩
  | 88 => ⟨S650000, .i32⟩
  | 89 => ⟨S650000, .i1⟩
  | 90 => ⟨S_, .i32⟩
  | 91 => ⟨S650000, .i32⟩
  | 92 => ⟨S650000, .i32⟩
  | 93 => ⟨S650000, .i32⟩
  | 94 => ⟨S650000x1, .i32⟩
  | 95 => ⟨S650000x128, .f32⟩
  | 96 => ⟨S650000x128, .f32⟩
  | 97 => ⟨S650000x128, .f32⟩
  | 98 => ⟨S_, .f32⟩
  | 99 => ⟨S50000x128, .f32⟩
  | 100 => ⟨S650000x1, .i32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S1x128x128, .bf16⟩
  | 107 => ⟨S128x128, .bf16⟩
  | 108 => ⟨S50000x128, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x128, .f32⟩
  | 119 => ⟨S650000x128, .f32⟩
  | 120 => ⟨S_, .f32⟩
  | 121 => ⟨S50000x128, .f32⟩
  | 122 => ⟨S650000x1, .i32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S1x128x128, .bf16⟩
  | 1 => ⟨S128x128, .bf16⟩
  | 2 => ⟨S50000x128, .f32⟩
  | 3 => ⟨S_, .i32⟩
  | 4 => ⟨S650000, .i32⟩
  | 5 => ⟨S650000, .i1⟩
  | 6 => ⟨S_, .i32⟩
  | 7 => ⟨S650000, .i32⟩
  | 8 => ⟨S650000, .i32⟩
  | 9 => ⟨S650000, .i32⟩
  | 10 => ⟨S650000x1, .i32⟩
  | 11 => ⟨S650000x128, .f32⟩
  | 12 => ⟨S650000x128, .f32⟩
  | 13 => ⟨S650000x128, .f32⟩
  | 14 => ⟨S_, .f32⟩
  | 15 => ⟨S50000x128, .f32⟩
  | 16 => ⟨S650000x1, .i32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S_, .f32⟩
  | 23 => ⟨S512x128, .f32⟩
  | 24 => ⟨S50000x1, .i32⟩
  | 25 => ⟨S512x128, .f32⟩
  | 26 => ⟨S_, .f32⟩
  | 27 => ⟨S512x128, .f32⟩
  | 28 => ⟨S50000x1, .i32⟩
  | 29 => ⟨S512x128, .f32⟩
  | 30 => ⟨S_, .f32⟩
  | 31 => ⟨S512x128, .f32⟩
  | 32 => ⟨S50000x1, .i32⟩
  | 33 => ⟨S512x128, .f32⟩
  | 34 => ⟨S_, .f32⟩
  | 35 => ⟨S512x128, .f32⟩
  | 36 => ⟨S50000x1, .i32⟩
  | 37 => ⟨S512x128, .f32⟩
  | 38 => ⟨S_, .f32⟩
  | 39 => ⟨S512x128, .f32⟩
  | 40 => ⟨S50000x1, .i32⟩
  | 41 => ⟨S512x128, .f32⟩
  | 42 => ⟨S512x640, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .bf16⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .bf16⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_7 : Ref sig .tc := ⟨.hbm, 65, rfl⟩
abbrev main_v51 : Ref sig .tc := ⟨.hbm, 66, rfl⟩
abbrev main_v52 : Ref sig .tc := ⟨.hbm, 67, rfl⟩
abbrev main_c_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_10 : Ref sig .tc := ⟨.hbm, 87, rfl⟩
abbrev main_v70 : Ref sig .tc := ⟨.hbm, 88, rfl⟩
abbrev main_v71 : Ref sig .tc := ⟨.hbm, 89, rfl⟩
abbrev main_c_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_c_13 : Ref sig .tc := ⟨.hbm, 109, rfl⟩
abbrev main_v89 : Ref sig .tc := ⟨.hbm, 110, rfl⟩
abbrev main_v90 : Ref sig .tc := ⟨.hbm, 111, rfl⟩
abbrev main_c_14 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_15 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_c_16 : Ref sig .tc := ⟨.hbm, 131, rfl⟩
abbrev main_v108 : Ref sig .tc := ⟨.hbm, 132, rfl⟩
abbrev main_v109 : Ref sig .tc := ⟨.hbm, 133, rfl⟩
abbrev main_c_17 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_18 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_19 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_20 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_21 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_22 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_23 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bitsLt_bf16_f32 : FTy.bits .bf16 < FTy.bits .f32
  slices_S5x128x128_S1x128x128_0_0_0 : S5x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  concatenates_S512x128_S512x128_S512x128_S512x128_S512x128_S512x640_d1 : Shape.Concatenates [S512x128, S512x128, S512x128, S512x128, S512x128] S512x640 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .bf16 = 32 ∨ (Rect.block (s := S128x128) S128x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v104) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v104) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v106) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v107) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v119) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v122) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v123) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128x128 : Shape := ⟨3, ![1, 128, 128]⟩
abbrev S128x128 : Shape := ⟨2, ![128, 128]⟩
abbrev S650000x128 : Shape := ⟨2, ![650000, 128]⟩
abbrev S1x128 : Shape := ⟨2, ![1, 128]⟩
abbrev S128 : Shape := ⟨1, ![128]⟩
abbrev S512x128 : Shape := ⟨2, ![512, 128]⟩
abbrev S50000x1 : Shape := ⟨2, ![50000, 1]⟩
abbrev S512x640 : Shape := ⟨2, ![512, 640]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S5x128x128, .f32⟩
  | 4 => ⟨S5x128, .f32⟩
  | 5 => ⟨S50000, .i32⟩
  | 6 => ⟨S1x600000, .i32⟩
  | 7 => ⟨S600000, .i32⟩
  | 8 => ⟨S650000, .i32⟩
  | 9 => ⟨S1x600000, .i32⟩
  | 10 => ⟨S600000, .i32⟩
  | 11 => ⟨S650000, .i32⟩
  | 12 => ⟨S_, .f32⟩
  | 13 => ⟨S50000, .f32⟩
  | 14 => ⟨S_, .i32⟩
  | 15 => ⟨S650000, .i32⟩
  | 16 => ⟨S650000, .i1⟩
  | 17 => ⟨S_, .i32⟩
  | 18 => ⟨S650000, .i32⟩
  | 19 => ⟨S650000, .i32⟩
  | 20 => ⟨S650000, .i32⟩
  | 21 => ⟨S650000x1, .i32⟩
  | 22 => ⟨S_, .f32⟩
  | 23 => ⟨S650000, .f32⟩
  | 24 => ⟨S50000, .f32⟩
  | 25 => ⟨S50000, .f32⟩
  | 26 => ⟨S_, .i32⟩
  | 27 => ⟨S650000, .i32⟩
  | 28 => ⟨S650000, .i1⟩
  | 29 => ⟨S_, .i32⟩
  | 30 => ⟨S650000, .i32⟩
  | 31 => ⟨S650000, .i32⟩
  | 32 => ⟨S650000, .i32⟩
  | 33 => ⟨S650000x1, .i32⟩
  | 34 => ⟨S650000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S650000, .f32⟩
  | 45 => ⟨S650000x1, .f32⟩
  | 46 => ⟨S1x128x128, .f32⟩
  | 47 => ⟨S128x128, .f32⟩
  | 48 => ⟨S50000x128, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x128, .f32⟩
  | 59 => ⟨S650000x128, .f32⟩
  | 60 => ⟨S_, .f32⟩
  | 61 => ⟨S50000x128, .f32⟩
  | 62 => ⟨S650000x1, .i32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S_, .i32⟩
  | 76 => ⟨S650000, .i32⟩
  | 77 => ⟨S650000, .i1⟩
  | 78 => ⟨S_, .i32⟩
  | 79 => ⟨S650000, .i32⟩
  | 80 => ⟨S650000, .i32⟩
  | 81 => ⟨S650000, .i32⟩
  | 82 => ⟨S650000x1, .i32⟩
  | 83 => ⟨S650000x128, .f32⟩
  | 84 => ⟨S650000x128, .f32⟩
  | 85 => ⟨S650000x128, .f32⟩
  | 86 => ⟨S_, .f32⟩
  | 87 => ⟨S50000x128, .f32⟩
  | 88 => ⟨S650000x1, .i32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S_, .i32⟩
  | 102 => ⟨S650000, .i32⟩
  | 103 => ⟨S650000, .i1⟩
  | 104 => ⟨S_, .i32⟩
  | 105 => ⟨S650000, .i32⟩
  | 106 => ⟨S650000, .i32⟩
  | 107 => ⟨S650000, .i32⟩
  | 108 => ⟨S650000x1, .i32⟩
  | 109 => ⟨S650000x128, .f32⟩
  | 110 => ⟨S650000x128, .f32⟩
  | 111 => ⟨S650000x128, .f32⟩
  | 112 => ⟨S_, .f32⟩
  | 113 => ⟨S50000x128, .f32⟩
  | 114 => ⟨S650000x1, .i32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S_, .i32⟩
  | _ => ⟨S50000x128, .f32⟩

abbrev hbmTy0_1 (i : Nat) : BufTy := match i % 128 with
  | 0 => ⟨S650000, .i32⟩
  | 1 => ⟨S650000, .i1⟩
  | 2 => ⟨S_, .i32⟩
  | 3 => ⟨S650000, .i32⟩
  | 4 => ⟨S650000, .i32⟩
  | 5 => ⟨S650000, .i32⟩
  | 6 => ⟨S650000x1, .i32⟩
  | 7 => ⟨S650000x128, .f32⟩
  | 8 => ⟨S650000x128, .f32⟩
  | 9 => ⟨S650000x128, .f32⟩
  | 10 => ⟨S_, .f32⟩
  | 11 => ⟨S50000x128, .f32⟩
  | 12 => ⟨S650000x1, .i32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x128x128, .f32⟩
  | 23 => ⟨S128x128, .f32⟩
  | 24 => ⟨S50000x128, .f32⟩
  | 25 => ⟨S_, .i32⟩
  | 26 => ⟨S650000, .i32⟩
  | 27 => ⟨S650000, .i1⟩
  | 28 => ⟨S_, .i32⟩
  | 29 => ⟨S650000, .i32⟩
  | 30 => ⟨S650000, .i32⟩
  | 31 => ⟨S650000, .i32⟩
  | 32 => ⟨S650000x1, .i32⟩
  | 33 => ⟨S650000x128, .f32⟩
  | 34 => ⟨S650000x128, .f32⟩
  | 35 => ⟨S650000x128, .f32⟩
  | 36 => ⟨S_, .f32⟩
  | 37 => ⟨S50000x128, .f32⟩
  | 38 => ⟨S650000x1, .i32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S512x128, .f32⟩
  | 50 => ⟨S50000x1, .i32⟩
  | 51 => ⟨S512x128, .f32⟩
  | 52 => ⟨S_, .f32⟩
  | 53 => ⟨S512x128, .f32⟩
  | 54 => ⟨S50000x1, .i32⟩
  | 55 => ⟨S512x128, .f32⟩
  | 56 => ⟨S_, .f32⟩
  | 57 => ⟨S512x128, .f32⟩
  | 58 => ⟨S50000x1, .i32⟩
  | 59 => ⟨S512x128, .f32⟩
  | 60 => ⟨S_, .f32⟩
  | 61 => ⟨S512x128, .f32⟩
  | 62 => ⟨S50000x1, .i32⟩
  | 63 => ⟨S512x128, .f32⟩
  | 64 => ⟨S_, .f32⟩
  | 65 => ⟨S512x128, .f32⟩
  | 66 => ⟨S50000x1, .i32⟩
  | 67 => ⟨S512x128, .f32⟩
  | 68 => ⟨S512x640, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_cst : Ref sig .tc := ⟨.hbm, 69, rfl⟩
abbrev main_call0_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_9 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call1_cst : Ref sig .tc := ⟨.hbm, 95, rfl⟩
abbrev main_call1_v0 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_12 : Ref sig .tc := ⟨.hbm, 101, rfl⟩
abbrev main_v78 : Ref sig .tc := ⟨.hbm, 102, rfl⟩
abbrev main_v79 : Ref sig .tc := ⟨.hbm, 103, rfl⟩
abbrev main_c_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_call2_cst : Ref sig .tc := ⟨.hbm, 121, rfl⟩
abbrev main_call2_v0 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_15 : Ref sig .tc := ⟨.hbm, 127, rfl⟩
abbrev main_v99 : Ref sig .tc := ⟨.hbm, 128, rfl⟩
abbrev main_v100 : Ref sig .tc := ⟨.hbm, 129, rfl⟩
abbrev main_c_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_call3_cst : Ref sig .tc := ⟨.hbm, 147, rfl⟩
abbrev main_call3_v0 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_18 : Ref sig .tc := ⟨.hbm, 153, rfl⟩
abbrev main_v120 : Ref sig .tc := ⟨.hbm, 154, rfl⟩
abbrev main_v121 : Ref sig .tc := ⟨.hbm, 155, rfl⟩
abbrev main_c_19 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_20 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_call4_cst : Ref sig .tc := ⟨.hbm, 173, rfl⟩
abbrev main_call4_v0 : Ref sig .tc := ⟨.hbm, 174, rfl⟩
abbrev main_v137 : Ref sig .tc := ⟨.hbm, 175, rfl⟩
abbrev main_cst_21 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_22 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_23 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_24 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_25 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S_S650000 : S_.BroadcastsInDim S650000 (![] : Fin 0 → Fin S650000.rank)
  bcast_S650000_S650000x1_0 : S650000.BroadcastsInDim S650000x1 (![0] : Fin 1 → Fin S650000x1.rank)
  slices_S5x128x128_S1x128x128_0_0_0 : S5x128x128.Slices ![0, 0, 0] S1x128x128
  shapeCasts_S1x128x128_S128x128 : S1x128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  concatenates_S512x128_S512x128_S512x128_S512x128_S512x128_S512x640_d1 : Shape.Concatenates [S512x128, S512x128, S512x128, S512x128, S512x128] S512x640 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.K.Region0.lean ====
import proofs.«160719_j29892972380736_1_alg».proof.Proof.Gen.Kernel.Launch
import proofs.«160719_j29892972380736_1_alg».proof.Proof.Gen.Kernel.Skeleton
import proofs.«160719_j29892972380736_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

def out0_2 (x0 : Vec F S5000x128 .f32) (x1 : Vec F S128x128 .bf16) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body keeps its two inputs and leaves the output at the one stored payload, whose rectangle is the whole block. -/
theorem sound_kernel0 (c : Dev nD) (E : Set ℕ) (i : grid0.Coords) (arg1 : Memref sig .tc .vmem S5000x128 .f32) (harg1 : arg1.IsWhole) (arg2 : Memref sig .tc .vmem S128x128 .bf16) (harg2 : arg2.IsWhole) (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1, after0_0, after0_1, after0_2]
  show _ ⊢ wp _ _ _ (bodyAt0 t) _
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region1.lean ====
import proofs.«160719_j29892972380736_1_alg».proof.Proof.Gen.Kernel.Launch
import proofs.«160719_j29892972380736_1_alg».proof.Proof.Gen.Kernel.Skeleton
import proofs.«160719_j29892972380736_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

def out1_2 (x0 : Vec F S5000x128 .f32) (x1 : Vec F S1x128 .f32) : Vec F S5000x128 .f32 :=
  View.canon [⟨r1_0, k1_pay1 (View.ld x0 r1_0) (View.ld x1 r1_1)⟩]

theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- The body keeps its two inputs and leaves the output at the one stored payload, whose rectangle is the whole block. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, after1_0, after1_1, after1_2]
  show _ ⊢ wp _ _ _ (bodyAt1 t) _
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region2.lean ====
import proofs.«160719_j29892972380736_1_alg».proof.Proof.Gen.Kernel.Launch
import proofs.«160719_j29892972380736_1_alg».proof.Proof.Gen.Kernel.Skeleton
import proofs.«160719_j29892972380736_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

def out2_2 (x0 : Vec F S5000x128 .f32) (x1 : Vec F S128x128 .bf16) : Vec F S5000x128 .f32 :=
  View.canon [⟨r2_0, k2_pay1 (View.ld x0 r2_0) (View.ld x1 r2_1)⟩]

theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The body keeps its two inputs and leaves the output at the one stored payload, whose rectangle is the whole block. -/
theorem sound_kernel2 (c : Dev nD) (E : Set ℕ) (i : grid2.Coords) (arg1 : Memref sig .tc .vmem S5000x128 .f32) (harg1 : arg1.IsWhole) (arg2 : Memref sig .tc .vmem S128x128 .bf16) (harg2 : arg2.IsWhole) (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1, after2_0, after2_1, after2_2]
  show _ ⊢ wp _ _ _ (bodyAt2 t) _
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region3.lean ====
import proofs.«160719_j29892972380736_1_alg».proof.Proof.K.Region1

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 :=
  View.canon [⟨r1_0, k3_pay1 (View.ld x0 r1_0) (View.ld x1 r1_1)⟩]

/-- Regions 1 and 3 run one and the same body. -/
theorem cc3_eq : cc3__bias_relu_kernel (F := F) = cc1__bias_relu_kernel := rfl
theorem out3_eq : out3_2 (F := F) = out1_2 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp only [before3_0, before3_1, after3_0, after3_1, after3_2]
  show _ ⊢ wp _ _ _ (bodyAt3 t) _
  unfold bodyAt3; rw [cc3_eq, out3_eq]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩⟩
  iapply (sound_kernel1 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region4.lean ====
import proofs.«160719_j29892972380736_1_alg».proof.Proof.K.Region2

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x128 .f32) (x1 : Vec F S128x128 .bf16) : Vec F S5000x128 .f32 :=
  View.canon [⟨r2_0, k4_pay1 (View.ld x0 r2_0) (View.ld x1 r2_1)⟩]

/-- Regions 2 and 4 run one and the same body. -/
theorem cc4_eq : cc4__matmul_kernel (F := F) = cc2__matmul_kernel := rfl
theorem out4_eq : out4_2 (F := F) = out2_2 := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1, after4_0, after4_1, after4_2]
  show _ ⊢ wp _ _ _ (bodyAt4 t) _
  unfold bodyAt4; rw [cc4_eq, out4_eq]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩⟩
  iapply (sound_kernel2 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region5.lean ====
import proofs.«160719_j29892972380736_1_alg».proof.Proof.K.Region1

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S5000x128 .f32) (x1 : Vec F S1x128 .f32) : Vec F S5000x128 .f32 :=
  View.canon [⟨r1_0, k5_pay1 (View.ld x0 r1_0) (View.ld x1 r1_1)⟩]

/-- Regions 1 and 5 run one and the same body. -/
theorem cc5_eq : cc5__bias_relu_kernel (F := F) = cc1__bias_relu_kernel := rfl
theorem out5_eq : out5_2 (F := F) = out1_2 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, after5_0, after5_1, after5_2]
  show _ ⊢ wp _ _ _ (bodyAt5 t) _
  unfold bodyAt5; rw [cc5_eq, out5_eq]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  iapply (sound_kernel1 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region6.lean ====
import proofs.«160719_j29892972380736_1_alg».proof.Proof.K.Region2

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S5000x128 .f32) (x1 : Vec F S128x128 .bf16) : Vec F S5000x128 .f32 :=
  View.canon [⟨r2_0, k6_pay1 (View.ld x0 r2_0) (View.ld x1 r2_1)⟩]

/-- Regions 2 and 6 run one and the same body. -/
theorem cc6_eq : cc6__matmul_kernel (F := F) = cc2__matmul_kernel := rfl
theorem out6_eq : out6_2 (F := F) = out2_2 := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  simp only [before6_0, before6_1, after6_0, after6_1, after6_2]
  show _ ⊢ wp _ _ _ (bodyAt6 t) _
  unfold bodyAt6; rw [cc6_eq, out6_eq]
  rw [show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩⟩
  iapply (sound_kernel2 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region7.lean ====
import proofs.«160719_j29892972380736_1_alg».proof.Proof.K.Region1

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_2 (x0 : Vec F S5000x128 .f32) (x1 : Vec F S1x128 .f32) : Vec F S5000x128 .f32 :=
  View.canon [⟨r1_0, k7_pay1 (View.ld x0 r1_0) (View.ld x1 r1_1)⟩]

/-- Regions 1 and 7 run one and the same body. -/
theorem cc7_eq : cc7__bias_relu_kernel (F := F) = cc1__bias_relu_kernel := rfl
theorem out7_eq : out7_2 (F := F) = out1_2 := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem after7_0 (c : Dev nD) (t : Fin cfg7.N) : (dat7 V c).after 0 t = iblk7 V c 0 t := rfl
theorem after7_1 (c : Dev nD) (t : Fin cfg7.N) : (dat7 V c).after 1 t = iblk7 V c 1 t := rfl
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  simp only [before7_0, before7_1, after7_0, after7_1, after7_2]
  show _ ⊢ wp _ _ _ (bodyAt7 t) _
  unfold bodyAt7; rw [cc7_eq, out7_eq]
  rw [show (dat7 V c).Φ t.succ = (dat7 V c).Φ t.castSucc from rfl,
    show (dat7 V c).owesAt () t.succ = (dat7 V c).owesAt () t.castSucc from rfl]
  iintro ⟨HΦ, Ho, ⟨%d0, H0⟩, ⟨%d1, H1⟩, ⟨%d2, H2⟩⟩
  iapply (sound_kernel1 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region8.lean ====
import proofs.«160719_j29892972380736_1_alg».proof.Proof.K.Region2

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_2 (x0 : Vec F S5000x128 .f32) (x1 : Vec F S128x128 .bf16) : Vec F S5000x128 .f32 :=
  View.canon [⟨r2_0, k8_pay1 (View.ld x0 r2_0) (View.ld x1 r2_1)⟩]

/-- Regions 2 and 8 run one and the same body. -/
theorem cc8_eq : cc8__matmul_kernel (F := F) = cc2__matmul_kernel := rfl
theorem out8_eq : out8_2 (F := F) = out2_2 := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem after8_0 (c : Dev nD) (t : Fin cfg8.N) : (dat8 V c).after 0 t = iblk8 V c 0 t := rfl
theorem after8_1 (c : Dev nD) (t : Fin cfg8.N) : (dat8 V c).after 1 t = iblk8 V c 1 t := rfl
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  simp only [before8_0, before8_1, after8_0, after8_1, after8_2]
  show _ ⊢ wp _ _ _ (bodyAt8 t) _
  unfold bodyAt8; rw [cc8_eq, out8_eq]
  rw [show (dat8 V c).Φ t.succ = (dat8 V c).Φ t.castSucc from rfl,
    show (dat8 V c).owesAt () t.succ = (dat8 V c).owesAt () t.castSucc from rfl]
  iintro ⟨HΦ, Ho, ⟨%d0, H0⟩, ⟨%d1, H1⟩, ⟨%d2, H2⟩⟩
  iapply (sound_kernel2 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Region9.lean ====
import proofs.«160719_j29892972380736_1_alg».proof.Proof.K.Region1

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_2 (x0 : Vec F S5000x128 .f32) (x1 : Vec F S1x128 .f32) : Vec F S5000x128 .f32 :=
  View.canon [⟨r1_0, k9_pay1 (View.ld x0 r1_0) (View.ld x1 r1_1)⟩]

/-- Regions 1 and 9 run one and the same body. -/
theorem cc9_eq : cc9__bias_relu_kernel (F := F) = cc1__bias_relu_kernel := rfl
theorem out9_eq : out9_2 (F := F) = out1_2 := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem after9_0 (c : Dev nD) (t : Fin cfg9.N) : (dat9 V c).after 0 t = iblk9 V c 0 t := rfl
theorem after9_1 (c : Dev nD) (t : Fin cfg9.N) : (dat9 V c).after 1 t = iblk9 V c 1 t := rfl
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp only [before9_0, before9_1, after9_0, after9_1, after9_2]
  show _ ⊢ wp _ _ _ (bodyAt9 t) _
  unfold bodyAt9; rw [cc9_eq, out9_eq]
  rw [show (dat9 V c).Φ t.succ = (dat9 V c).Φ t.castSucc from rfl,
    show (dat9 V c).owesAt () t.succ = (dat9 V c).owesAt () t.castSucc from rfl]
  iintro ⟨HΦ, Ho, ⟨%d0, H0⟩, ⟨%d1, H1⟩, ⟨%d2, H2⟩⟩
  iapply (sound_kernel1 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Rgn

end
-- ==== Proof.K.Outs.lean ====
import proofs.«160719_j29892972380736_1_alg».proof.Proof.K.Region0
import proofs.«160719_j29892972380736_1_alg».proof.Proof.K.Region1
import proofs.«160719_j29892972380736_1_alg».proof.Proof.K.Region2
import proofs.«160719_j29892972380736_1_alg».proof.Proof.K.Region3
import proofs.«160719_j29892972380736_1_alg».proof.Proof.K.Region4
import proofs.«160719_j29892972380736_1_alg».proof.Proof.K.Region5
import proofs.«160719_j29892972380736_1_alg».proof.Proof.K.Region6
import proofs.«160719_j29892972380736_1_alg».proof.Proof.K.Region7
import proofs.«160719_j29892972380736_1_alg».proof.Proof.K.Region8
import proofs.«160719_j29892972380736_1_alg».proof.Proof.K.Region9
import proofs.«160719_j29892972380736_1_alg».proof.Proof.Gen.Kernel.Regions

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def putOut (o : Outs (F := F)) (J : ℕ) (r : Ref sig .tc) (v : (c : Dev nD) → Buf (Elt F) ((c : Thread nD τ).loc r)) : Outs (F := F) :=
  fun J' r' c => if h : J' = J ∧ r' = r then h.2 ▸ v c else o J' r' c

theorem putOut_same (o : Outs (F := F)) (J : ℕ) (r : Ref sig .tc) (v : (c : Dev nD) → Buf (Elt F) ((c : Thread nD τ).loc r)) (c : Dev nD) :
    putOut o J r v J r c = v c := by
  unfold putOut; rw [dif_pos ⟨rfl, rfl⟩]

theorem putOut_ne (o : Outs (F := F)) (J : ℕ) (r : Ref sig .tc) (v : (c : Dev nD) → Buf (Elt F) ((c : Thread nD τ).loc r)) (J' : ℕ) (r' : Ref sig .tc) (c : Dev nD)
    (h : J' ≠ J) : putOut o J r v J' r' c = o J' r' c := by
  unfold putOut; rw [dif_neg (fun hh => h hh.1)]

def outs0 : Outs (F := F) := fun _ r c => m ((c : Thread nD τ).loc r)

def outs1 : Outs (F := F) := putOut (outs0 m) 2 main_v31 (fun c => (dat0 (atTc (V1 m)) c).arrAt 2 cfg0.N)

def outs2 : Outs (F := F) := putOut (outs1 m) 4 main_v47 (fun c => (dat1 (atTc (V3 m (outs1 m))) c).arrAt 2 cfg1.N)

def outs3 : Outs (F := F) := putOut (outs2 m) 6 main_v50 (fun c => (dat2 (atTc (V5 m (outs2 m))) c).arrAt 2 cfg2.N)

def outs4 : Outs (F := F) := putOut (outs3 m) 8 main_v66 (fun c => (dat3 (atTc (V7 m (outs3 m))) c).arrAt 2 cfg3.N)

def outs5 : Outs (F := F) := putOut (outs4 m) 10 main_v69 (fun c => (dat4 (atTc (V9 m (outs4 m))) c).arrAt 2 cfg4.N)

def outs6 : Outs (F := F) := putOut (outs5 m) 12 main_v85 (fun c => (dat5 (atTc (V11 m (outs5 m))) c).arrAt 2 cfg5.N)

def outs7 : Outs (F := F) := putOut (outs6 m) 14 main_v88 (fun c => (dat6 (atTc (V13 m (outs6 m))) c).arrAt 2 cfg6.N)

def outs8 : Outs (F := F) := putOut (outs7 m) 16 main_v104 (fun c => (dat7 (atTc (V15 m (outs7 m))) c).arrAt 2 cfg7.N)

def outs9 : Outs (F := F) := putOut (outs8 m) 18 main_v107 (fun c => (dat8 (atTc (V17 m (outs8 m))) c).arrAt 2 cfg8.N)

def outs10 : Outs (F := F) := putOut (outs9 m) 20 main_v123 (fun c => (dat9 (atTc (V19 m (outs9 m))) c).arrAt 2 cfg9.N)

def outs : Outs (F := F) := outs10 m

def pdats : (p : Fin 10) → (c : Dev nD) → Dat τ (Elt F) Unit ℕ (UR sig nD τ) ℕ (cfgs p) c
  | ⟨0, _⟩ => fun c => dat0 (atTc (V1 m)) c
  | ⟨1, _⟩ => fun c => dat1 (atTc (V3 m (outs m))) c
  | ⟨2, _⟩ => fun c => dat2 (atTc (V5 m (outs m))) c
  | ⟨3, _⟩ => fun c => dat3 (atTc (V7 m (outs m))) c
  | ⟨4, _⟩ => fun c => dat4 (atTc (V9 m (outs m))) c
  | ⟨5, _⟩ => fun c => dat5 (atTc (V11 m (outs m))) c
  | ⟨6, _⟩ => fun c => dat6 (atTc (V13 m (outs m))) c
  | ⟨7, _⟩ => fun c => dat7 (atTc (V15 m (outs m))) c
  | ⟨8, _⟩ => fun c => dat8 (atTc (V17 m (outs m))) c
  | ⟨9, _⟩ => fun c => dat9 (atTc (V19 m (outs m))) c

theorem outs_le10 (J : ℕ) (r : Ref sig .tc) (c : Dev nD) : outs m J r c = outs10 m J r c := rfl
theorem outs_le9 (J : ℕ) (hJ : J ≤ 18) (r : Ref sig .tc) (c : Dev nD) : outs m J r c = outs9 m J r c := by
  rw [outs_le10 m J r c]; unfold outs10; exact putOut_ne _ _ _ _ _ _ _ (by omega)
theorem outs_le8 (J : ℕ) (hJ : J ≤ 16) (r : Ref sig .tc) (c : Dev nD) : outs m J r c = outs8 m J r c := by
  rw [outs_le9 m J (by omega) r c]; unfold outs9; exact putOut_ne _ _ _ _ _ _ _ (by omega)
theorem outs_le7 (J : ℕ) (hJ : J ≤ 14) (r : Ref sig .tc) (c : Dev nD) : outs m J r c = outs7 m J r c := by
  rw [outs_le8 m J (by omega) r c]; unfold outs8; exact putOut_ne _ _ _ _ _ _ _ (by omega)
theorem outs_le6 (J : ℕ) (hJ : J ≤ 12) (r : Ref sig .tc) (c : Dev nD) : outs m J r c = outs6 m J r c := by
  rw [outs_le7 m J (by omega) r c]; unfold outs7; exact putOut_ne _ _ _ _ _ _ _ (by omega)
theorem outs_le5 (J : ℕ) (hJ : J ≤ 10) (r : Ref sig .tc) (c : Dev nD) : outs m J r c = outs5 m J r c := by
  rw [outs_le6 m J (by omega) r c]; unfold outs6; exact putOut_ne _ _ _ _ _ _ _ (by omega)
theorem outs_le4 (J : ℕ) (hJ : J ≤ 8) (r : Ref sig .tc) (c : Dev nD) : outs m J r c = outs4 m J r c := by
  rw [outs_le5 m J (by omega) r c]; unfold outs5; exact putOut_ne _ _ _ _ _ _ _ (by omega)
theorem outs_le3 (J : ℕ) (hJ : J ≤ 6) (r : Ref sig .tc) (c : Dev nD) : outs m J r c = outs3 m J r c := by
  rw [outs_le4 m J (by omega) r c]; unfold outs4; exact putOut_ne _ _ _ _ _ _ _ (by omega)
theorem outs_le2 (J : ℕ) (hJ : J ≤ 4) (r : Ref sig .tc) (c : Dev nD) : outs m J r c = outs2 m J r c := by
  rw [outs_le3 m J (by omega) r c]; unfold outs3; exact putOut_ne _ _ _ _ _ _ _ (by omega)
theorem outs_le1 (J : ℕ) (hJ : J ≤ 2) (r : Ref sig .tc) (c : Dev nD) : outs m J r c = outs1 m J r c := by
  rw [outs_le2 m J (by omega) r c]; unfold outs2; exact putOut_ne _ _ _ _ _ _ _ (by omega)

section Congr
variable (o o' : Outs (F := F))
theorem Vc2 (h : ∀ J' ≤ 2, ∀ r c, o J' r c = o' J' r c) (c : Dev nD) : V2 m o c = V2 m o' c := by
  show Function.update (V1 m c) _ (o 2 main_v31 c) = Function.update (V1 m c) _ (o' 2 main_v31 c)
  rw [h 2 (le_refl _)]
theorem Vc3 (h : ∀ J' ≤ 2, ∀ r c, o J' r c = o' J' r c) (c : Dev nD) : V3 m o c = V3 m o' c :=
  congrArg (StableHlo.after hostOps1) (Vc2 m o o' h c)
theorem Vc4 (h : ∀ J' ≤ 4, ∀ r c, o J' r c = o' J' r c) (c : Dev nD) : V4 m o c = V4 m o' c := by
  show Function.update (V3 m o c) _ (o 4 main_v47 c) = Function.update (V3 m o' c) _ (o' 4 main_v47 c)
  rw [h 4 (le_refl _), Vc3 m o o' (fun J' hJ' => h J' (by omega)) c]
theorem Vc5 (h : ∀ J' ≤ 4, ∀ r c, o J' r c = o' J' r c) (c : Dev nD) : V5 m o c = V5 m o' c :=
  congrArg (StableHlo.after hostOps2) (Vc4 m o o' h c)
theorem Vc6 (h : ∀ J' ≤ 6, ∀ r c, o J' r c = o' J' r c) (c : Dev nD) : V6 m o c = V6 m o' c := by
  show Function.update (V5 m o c) _ (o 6 main_v50 c) = Function.update (V5 m o' c) _ (o' 6 main_v50 c)
  rw [h 6 (le_refl _), Vc5 m o o' (fun J' hJ' => h J' (by omega)) c]
theorem Vc7 (h : ∀ J' ≤ 6, ∀ r c, o J' r c = o' J' r c) (c : Dev nD) : V7 m o c = V7 m o' c :=
  congrArg (StableHlo.after hostOps3) (Vc6 m o o' h c)
theorem Vc8 (h : ∀ J' ≤ 8, ∀ r c, o J' r c = o' J' r c) (c : Dev nD) : V8 m o c = V8 m o' c := by
  show Function.update (V7 m o c) _ (o 8 main_v66 c) = Function.update (V7 m o' c) _ (o' 8 main_v66 c)
  rw [h 8 (le_refl _), Vc7 m o o' (fun J' hJ' => h J' (by omega)) c]
theorem Vc9 (h : ∀ J' ≤ 8, ∀ r c, o J' r c = o' J' r c) (c : Dev nD) : V9 m o c = V9 m o' c :=
  congrArg (StableHlo.after hostOps4) (Vc8 m o o' h c)
theorem Vc10 (h : ∀ J' ≤ 10, ∀ r c, o J' r c = o' J' r c) (c : Dev nD) : V10 m o c = V10 m o' c := by
  show Function.update (V9 m o c) _ (o 10 main_v69 c) = Function.update (V9 m o' c) _ (o' 10 main_v69 c)
  rw [h 10 (le_refl _), Vc9 m o o' (fun J' hJ' => h J' (by omega)) c]
theorem Vc11 (h : ∀ J' ≤ 10, ∀ r c, o J' r c = o' J' r c) (c : Dev nD) : V11 m o c = V11 m o' c :=
  congrArg (StableHlo.after hostOps5) (Vc10 m o o' h c)
theorem Vc12 (h : ∀ J' ≤ 12, ∀ r c, o J' r c = o' J' r c) (c : Dev nD) : V12 m o c = V12 m o' c := by
  show Function.update (V11 m o c) _ (o 12 main_v85 c) = Function.update (V11 m o' c) _ (o' 12 main_v85 c)
  rw [h 12 (le_refl _), Vc11 m o o' (fun J' hJ' => h J' (by omega)) c]
theorem Vc13 (h : ∀ J' ≤ 12, ∀ r c, o J' r c = o' J' r c) (c : Dev nD) : V13 m o c = V13 m o' c :=
  congrArg (StableHlo.after hostOps6) (Vc12 m o o' h c)
theorem Vc14 (h : ∀ J' ≤ 14, ∀ r c, o J' r c = o' J' r c) (c : Dev nD) : V14 m o c = V14 m o' c := by
  show Function.update (V13 m o c) _ (o 14 main_v88 c) = Function.update (V13 m o' c) _ (o' 14 main_v88 c)
  rw [h 14 (le_refl _), Vc13 m o o' (fun J' hJ' => h J' (by omega)) c]
theorem Vc15 (h : ∀ J' ≤ 14, ∀ r c, o J' r c = o' J' r c) (c : Dev nD) : V15 m o c = V15 m o' c :=
  congrArg (StableHlo.after hostOps7) (Vc14 m o o' h c)
theorem Vc16 (h : ∀ J' ≤ 16, ∀ r c, o J' r c = o' J' r c) (c : Dev nD) : V16 m o c = V16 m o' c := by
  show Function.update (V15 m o c) _ (o 16 main_v104 c) = Function.update (V15 m o' c) _ (o' 16 main_v104 c)
  rw [h 16 (le_refl _), Vc15 m o o' (fun J' hJ' => h J' (by omega)) c]
theorem Vc17 (h : ∀ J' ≤ 16, ∀ r c, o J' r c = o' J' r c) (c : Dev nD) : V17 m o c = V17 m o' c :=
  congrArg (StableHlo.after hostOps8) (Vc16 m o o' h c)
theorem Vc18 (h : ∀ J' ≤ 18, ∀ r c, o J' r c = o' J' r c) (c : Dev nD) : V18 m o c = V18 m o' c := by
  show Function.update (V17 m o c) _ (o 18 main_v107 c) = Function.update (V17 m o' c) _ (o' 18 main_v107 c)
  rw [h 18 (le_refl _), Vc17 m o o' (fun J' hJ' => h J' (by omega)) c]
theorem Vc19 (h : ∀ J' ≤ 18, ∀ r c, o J' r c = o' J' r c) (c : Dev nD) : V19 m o c = V19 m o' c :=
  congrArg (StableHlo.after hostOps9) (Vc18 m o o' h c)
theorem Vc20 (h : ∀ J' ≤ 20, ∀ r c, o J' r c = o' J' r c) (c : Dev nD) : V20 m o c = V20 m o' c := by
  show Function.update (V19 m o c) _ (o 20 main_v123 c) = Function.update (V19 m o' c) _ (o' 20 main_v123 c)
  rw [h 20 (le_refl _), Vc19 m o o' (fun J' hJ' => h J' (by omega)) c]
end Congr

theorem outs_at0 (c : Dev nD) : outs m 2 main_v31 c = (dat0 (atTc (V1 m)) c).arrAt 2 cfg0.N := by
  rw [outs_le1 m 2 (le_refl _) main_v31 c]; unfold outs1; exact putOut_same _ _ _ _ _
theorem entry_eq1 : V3 m (outs1 m) = V3 m (outs m) :=
  funext fun c => (Vc3 m (outs m) (outs1 m) (fun J' hJ' r c => outs_le1 m J' hJ' r c) c).symm
theorem outs_at1 (c : Dev nD) : outs m 4 main_v47 c = (dat1 (atTc (V3 m (outs m))) c).arrAt 2 cfg1.N := by
  rw [outs_le2 m 4 (le_refl _) main_v47 c]; unfold outs2; rw [putOut_same, entry_eq1]
theorem entry_eq2 : V5 m (outs2 m) = V5 m (outs m) :=
  funext fun c => (Vc5 m (outs m) (outs2 m) (fun J' hJ' r c => outs_le2 m J' hJ' r c) c).symm
theorem outs_at2 (c : Dev nD) : outs m 6 main_v50 c = (dat2 (atTc (V5 m (outs m))) c).arrAt 2 cfg2.N := by
  rw [outs_le3 m 6 (le_refl _) main_v50 c]; unfold outs3; rw [putOut_same, entry_eq2]
theorem entry_eq3 : V7 m (outs3 m) = V7 m (outs m) :=
  funext fun c => (Vc7 m (outs m) (outs3 m) (fun J' hJ' r c => outs_le3 m J' hJ' r c) c).symm
theorem outs_at3 (c : Dev nD) : outs m 8 main_v66 c = (dat3 (atTc (V7 m (outs m))) c).arrAt 2 cfg3.N := by
  rw [outs_le4 m 8 (le_refl _) main_v66 c]; unfold outs4; rw [putOut_same, entry_eq3]
theorem entry_eq4 : V9 m (outs4 m) = V9 m (outs m) :=
  funext fun c => (Vc9 m (outs m) (outs4 m) (fun J' hJ' r c => outs_le4 m J' hJ' r c) c).symm
theorem outs_at4 (c : Dev nD) : outs m 10 main_v69 c = (dat4 (atTc (V9 m (outs m))) c).arrAt 2 cfg4.N := by
  rw [outs_le5 m 10 (le_refl _) main_v69 c]; unfold outs5; rw [putOut_same, entry_eq4]
theorem entry_eq5 : V11 m (outs5 m) = V11 m (outs m) :=
  funext fun c => (Vc11 m (outs m) (outs5 m) (fun J' hJ' r c => outs_le5 m J' hJ' r c) c).symm
theorem outs_at5 (c : Dev nD) : outs m 12 main_v85 c = (dat5 (atTc (V11 m (outs m))) c).arrAt 2 cfg5.N := by
  rw [outs_le6 m 12 (le_refl _) main_v85 c]; unfold outs6; rw [putOut_same, entry_eq5]
theorem entry_eq6 : V13 m (outs6 m) = V13 m (outs m) :=
  funext fun c => (Vc13 m (outs m) (outs6 m) (fun J' hJ' r c => outs_le6 m J' hJ' r c) c).symm
theorem outs_at6 (c : Dev nD) : outs m 14 main_v88 c = (dat6 (atTc (V13 m (outs m))) c).arrAt 2 cfg6.N := by
  rw [outs_le7 m 14 (le_refl _) main_v88 c]; unfold outs7; rw [putOut_same, entry_eq6]
theorem entry_eq7 : V15 m (outs7 m) = V15 m (outs m) :=
  funext fun c => (Vc15 m (outs m) (outs7 m) (fun J' hJ' r c => outs_le7 m J' hJ' r c) c).symm
theorem outs_at7 (c : Dev nD) : outs m 16 main_v104 c = (dat7 (atTc (V15 m (outs m))) c).arrAt 2 cfg7.N := by
  rw [outs_le8 m 16 (le_refl _) main_v104 c]; unfold outs8; rw [putOut_same, entry_eq7]
theorem entry_eq8 : V17 m (outs8 m) = V17 m (outs m) :=
  funext fun c => (Vc17 m (outs m) (outs8 m) (fun J' hJ' r c => outs_le8 m J' hJ' r c) c).symm
theorem outs_at8 (c : Dev nD) : outs m 18 main_v107 c = (dat8 (atTc (V17 m (outs m))) c).arrAt 2 cfg8.N := by
  rw [outs_le9 m 18 (le_refl _) main_v107 c]; unfold outs9; rw [putOut_same, entry_eq8]
theorem entry_eq9 : V19 m (outs9 m) = V19 m (outs m) :=
  funext fun c => (Vc19 m (outs m) (outs9 m) (fun J' hJ' r c => outs_le9 m J' hJ' r c) c).symm
theorem outs_at9 (c : Dev nD) : outs m 20 main_v123 c = (dat9 (atTc (V19 m (outs m))) c).arrAt 2 cfg9.N := by
  rw [outs_le10 m 20 main_v123 c]; unfold outs10; rw [putOut_same, entry_eq9]

local notation "𝕄" => MT nD τ sig Unit (Elt F) ℕ (UR sig nD τ) ℕ

abbrev noVar : Variants := Variants.none

abbrev noLev : GSem nD τ sig → Finset Unit := fun _ => ∅
abbrev lvZero : GSem nD τ sig → Unit → ℕ := fun _ _ => 0

abbrev Rest (c : Dev nD) : sProp 𝕄 := iprop((∃ r, prngReg c r) ∗ ∃ W, owes (c : Thread nD τ) (0 : CellTallies nD τ sig Unit) W)

abbrev Rests : Fin 11 → Dev nD → sProp 𝕄 := fun _ c => Rest c

end Cert.Kernel.Rgn

end
-- ==== Proof.K.SegOf.lean ====
import proofs.«160719_j29892972380736_1_alg».proof.Proof.K.Outs

noncomputable section

namespace Cert.Kernel.Rgn

open Cert.Kernel Cert.Kernel.Gen Idealize.ShloMosaic Idealize.ShloMosaic.TcCoe
open Idealize.SL Idealize.SL.RA Idealize.SL.BI Idealize.SL.BI.BIBase Idealize.SL.ProofMode
open scoped Idealize.SL.BI
open Idealize.ShloMosaic.Pipeline (BodyObligation)

variable {F : FTy → Type} [FloatOps F] (m : (ℓ : Loc nD τ sig) → Buf (Elt F) ℓ)

set_option backward.isDefEq.respectTransparency.types false in
/-- Region `p` as one step of the run: the contents `Vi` become `Vi` with the output array (window `wo`) replaced by `o`, what the proof data ends at there; the input arrays are unchanged. -/
def regOf (p : Fin 10) (L : Pipeline.LaunchFacts (nD := nD) (τ := τ) cfgs p) (Vi : Dev nD → Valuation τ sig (Elt F))
    (wo : Fin (cfgs p).W) (o : (c : Dev nD) → Buf (Elt F) ((c : Thread nD τ).loc (Pipeline.arrRef (cfgs p).spec wo)))
    (hb : ∀ c, BodyObligation (pdats m p c) (defs₀ (F := F)) noVar () Set.univ)
    (howed : ∀ c t, (pdats m p c).owed t = 0) (hrec : ∀ c, (pdats m p c).recorded 0 = Set.univ)
    (hq : ∀ c w, (pdats m p c).q w = fullShare)
    (hA : ∀ c w, (pdats m p c).A w = atTc Vi c (Pipeline.arrRef (cfgs p).spec w))
    (hΦ : ∀ c i, (pdats m p c).Φ i = Pipeline.ΦA (cfgs p).spec c)
    (hO : ∀ c, o c = (pdats m p c).arrAt wo (cfgs p).N)
    (hi : ∀ w, w ≠ wo → ((cfgs p).win w).isOut = false) :
    Pipeline.RegionSeg (pcfgs (F := F)) adm (pdats m) () defs₀ noVar noLev lvZero p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ noLev lvZero p howed
  pre c := iprop(StableHlo.held (c : Thread nD τ) (Pipeline.ucRefs τ sig) (Vi c) ∗ Rest c)
  post c := iprop(StableHlo.held (c : Thread nD τ) (Pipeline.ucRefs τ sig) (Function.update (Vi c) (Proc.devRef .tc (Pipeline.arrRef (cfgs p).spec wo)) (o c)) ∗ Rest c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) L.win L.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atTc Vi c) (atTc (fun c => Function.update (Vi c) _ (o c)) c) ((pdats m p c).arrAt · (cfgs p).N)
      (fun w => by
        rcases eq_or_ne w wo with rfl | h
        · exact (hO c).symm.trans (Function.update_self _ _ (Vi c)).symm
        · exact (((pdats m p c).arrAt_in w (hi w h) _).trans (hA c w)).trans
            (Function.update_of_ne (StableHlo.devRef_ne_of_ne fun e => h (L.win.arr_inj e)) _ _).symm)
      (fun b hb => Function.update_of_ne (StableHlo.devRef_ne_of_ne fun e => hb (Finset.mem_image.mpr ⟨wo, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.Kernel.Rgn

end
-- ==== Proof.K.Seg0.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg0 : Pipeline.RegionSeg (pcfgs (F := F)) adm (pdats m) () defs₀ noVar noLev lvZero 0 :=
  regOf m 0 launch0 (V1 m) (2 : Fin 3) (outs m 2 main_v31) (body_obligation0 _)
    (fun _ _ => rfl) (fun _ => rfl) (fun _ _ => rfl) (fun _ _ => rfl) (fun _ _ => rfl) (outs_at0 m) (by decide)

end Cert.Kernel.Rgn

end
-- ==== Proof.K.Seg1.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg1 : Pipeline.RegionSeg (pcfgs (F := F)) adm (pdats m) () defs₀ noVar noLev lvZero 1 :=
  regOf m 1 launch1 (V3 m (outs m)) (2 : Fin 3) (outs m 4 main_v47) (body_obligation1 _)
    (fun _ _ => rfl) (fun _ => rfl) (fun _ _ => rfl) (fun _ _ => rfl) (fun _ _ => rfl) (outs_at1 m) (by decide)

end Cert.Kernel.Rgn

end
-- ==== Proof.K.Seg2.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg2 : Pipeline.RegionSeg (pcfgs (F := F)) adm (pdats m) () defs₀ noVar noLev lvZero 2 :=
  regOf m 2 launch2 (V5 m (outs m)) (2 : Fin 3) (outs m 6 main_v50) (body_obligation2 _)
    (fun _ _ => rfl) (fun _ => rfl) (fun _ _ => rfl) (fun _ _ => rfl) (fun _ _ => rfl) (outs_at2 m) (by decide)

end Cert.Kernel.Rgn

end
-- ==== Proof.K.Seg3.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg3 : Pipeline.RegionSeg (pcfgs (F := F)) adm (pdats m) () defs₀ noVar noLev lvZero 3 :=
  regOf m 3 launch3 (V7 m (outs m)) (2 : Fin 3) (outs m 8 main_v66) (body_obligation3 _)
    (fun _ _ => rfl) (fun _ => rfl) (fun _ _ => rfl) (fun _ _ => rfl) (fun _ _ => rfl) (outs_at3 m) (by decide)

end Cert.Kernel.Rgn

end
-- ==== Proof.K.Seg4.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg4 : Pipeline.RegionSeg (pcfgs (F := F)) adm (pdats m) () defs₀ noVar noLev lvZero 4 :=
  regOf m 4 launch4 (V9 m (outs m)) (2 : Fin 3) (outs m 10 main_v69) (body_obligation4 _)
    (fun _ _ => rfl) (fun _ => rfl) (fun _ _ => rfl) (fun _ _ => rfl) (fun _ _ => rfl) (outs_at4 m) (by decide)

end Cert.Kernel.Rgn

end
-- ==== Proof.K.Seg5.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg5 : Pipeline.RegionSeg (pcfgs (F := F)) adm (pdats m) () defs₀ noVar noLev lvZero 5 :=
  regOf m 5 launch5 (V11 m (outs m)) (2 : Fin 3) (outs m 12 main_v85) (body_obligation5 _)
    (fun _ _ => rfl) (fun _ => rfl) (fun _ _ => rfl) (fun _ _ => rfl) (fun _ _ => rfl) (outs_at5 m) (by decide)

end Cert.Kernel.Rgn

end
-- ==== Proof.K.Seg6.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg6 : Pipeline.RegionSeg (pcfgs (F := F)) adm (pdats m) () defs₀ noVar noLev lvZero 6 :=
  regOf m 6 launch6 (V13 m (outs m)) (2 : Fin 3) (outs m 14 main_v88) (body_obligation6 _)
    (fun _ _ => rfl) (fun _ => rfl) (fun _ _ => rfl) (fun _ _ => rfl) (fun _ _ => rfl) (outs_at6 m) (by decide)

end Cert.Kernel.Rgn

end
-- ==== Proof.K.Seg7.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg7 : Pipeline.RegionSeg (pcfgs (F := F)) adm (pdats m) () defs₀ noVar noLev lvZero 7 :=
  regOf m 7 launch7 (V15 m (outs m)) (2 : Fin 3) (outs m 16 main_v104) (body_obligation7 _)
    (fun _ _ => rfl) (fun _ => rfl) (fun _ _ => rfl) (fun _ _ => rfl) (fun _ _ => rfl) (outs_at7 m) (by decide)

end Cert.Kernel.Rgn

end
-- ==== Proof.K.Seg8.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg8 : Pipeline.RegionSeg (pcfgs (F := F)) adm (pdats m) () defs₀ noVar noLev lvZero 8 :=
  regOf m 8 launch8 (V17 m (outs m)) (2 : Fin 3) (outs m 18 main_v107) (body_obligation8 _)
    (fun _ _ => rfl) (fun _ => rfl) (fun _ _ => rfl) (fun _ _ => rfl) (fun _ _ => rfl) (outs_at8 m) (by decide)

end Cert.Kernel.Rgn

end
-- ==== Proof.K.Seg9.lean ====
import proofs.«160719_j29892972380736_1_alg».proof.Proof.K.Outs
import proofs.«160719_j29892972380736_1_alg».proof.Proof.K.SegOf

noncomputable section

namespace Cert.Kernel.Rgn

open Cert.Kernel Cert.Kernel.Gen Idealize.ShloMosaic

variable {F : FTy → Type} [FloatOps F] (m : (ℓ : Loc nD τ sig) → Buf (Elt F) ℓ)

def reg9 : Pipeline.RegionSeg (pcfgs (F := F)) adm (pdats m) () defs₀ noVar noLev lvZero 9 :=
  regOf m 9 launch9 (V19 m (outs m)) (2 : Fin 3) (outs m 20 main_v123) (body_obligation9 _)
    (fun _ _ => rfl) (fun _ => rfl) (fun _ _ => rfl) (fun _ _ => rfl) (fun _ _ => rfl) (outs_at9 m) (by decide)

end Cert.Kernel.Rgn

end
-- ==== Proof.K.Frame.lean ====
import proofs.«160719_j29892972380736_1_alg».proof.Proof.K.Seg0
import proofs.«160719_j29892972380736_1_alg».proof.Proof.K.Seg1
import proofs.«160719_j29892972380736_1_alg».proof.Proof.K.Seg2
import proofs.«160719_j29892972380736_1_alg».proof.Proof.K.Seg3
import proofs.«160719_j29892972380736_1_alg».proof.Proof.K.Seg4
import proofs.«160719_j29892972380736_1_alg».proof.Proof.K.Seg5
import proofs.«160719_j29892972380736_1_alg».proof.Proof.K.Seg6
import proofs.«160719_j29892972380736_1_alg».proof.Proof.K.Seg7
import proofs.«160719_j29892972380736_1_alg».proof.Proof.K.Seg8
import proofs.«160719_j29892972380736_1_alg».proof.Proof.K.Seg9

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_rest_core (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ Rests (F := F) 0 c := by
  iintro ⟨-, HO, -, Hp, -⟩
  isplitl [Hp]; · iexists _; iexact Hp
  iexists ∅; iexact HO

theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noLev lvZero)
      ⊢ (|={Set.univ}=> bigSep Finset.univ (Rests (F := F) 0) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (Rests (F := F) 0) : sProp 𝕄) :=
    bigSep_mono fun c _ => launch_rest_core ρ c
  iintro ⟨H, -⟩
  imodintro
  iapply hmono
  iexact H

theorem rest_owes (c : Dev nD) : Rests (F := F) 10 c ⊢ (iprop(∃ W, owes (c : Thread nD τ) (0 : CellTallies nD τ sig Unit) W) : sProp 𝕄) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () noVar noLev lvZero (fun _ _ => rfl) ρ (outs m) (pdats m) 0 (fun _ => iprop(emp))
    (initOf (Pipeline.cells cfgs cellOf_inj) (Pipeline.launchToks cfgs cellOf_inj)) (launch_ghost (F := F)) Rests (launch_rest ρ) rest_owes
    (reg0 m) (fun _ => .rfl) (fun _ => .rfl) (reg1 m) (fun _ => .rfl) (fun _ => .rfl) (reg2 m) (fun _ => .rfl) (fun _ => .rfl) (reg3 m) (fun _ => .rfl) (fun _ => .rfl) (reg4 m) (fun _ => .rfl) (fun _ => .rfl) (reg5 m) (fun _ => .rfl) (fun _ => .rfl) (reg6 m) (fun _ => .rfl) (fun _ => .rfl) (reg7 m) (fun _ => .rfl) (fun _ => .rfl) (reg8 m) (fun _ => .rfl) (fun _ => .rfl) (reg9 m) (fun _ => .rfl) (fun _ => .rfl)

end Cert.Kernel.Rgn

end
-- ==== Proof.KI.Region0.lean ====
import proofs.«160719_j29892972380736_1_alg».proof.Proof.Gen.KernelIdeal.Launch
import proofs.«160719_j29892972380736_1_alg».proof.Proof.Gen.KernelIdeal.Skeleton
import proofs.«160719_j29892972380736_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

def out0_2 (x0 : Vec F S5000x128 .f32) (x1 : Vec F S128x128 .bf16) : Vec F S5000x128 .f32 :=
  View.canon [⟨r0_0, k0_pay1 (View.ld x0 r0_0) (View.ld x1 r0_1)⟩]

theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The body keeps its two inputs and leaves the output at the one stored payload, whose rectangle is the whole block. -/
theorem sound_kernel0 (c : Dev nD) (E : Set ℕ) (i : grid0.Coords) (arg1 : Memref sig .tc .vmem S5000x128 .f32) (harg1 : arg1.IsWhole) (arg2 : Memref sig .tc .vmem S128x128 .bf16) (harg2 : arg2.IsWhole) (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1, after0_0, after0_1, after0_2]
  show _ ⊢ wp _ _ _ (bodyAt0 t) _
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region1.lean ====
import proofs.«160719_j29892972380736_1_alg».proof.Proof.Gen.KernelIdeal.Launch
import proofs.«160719_j29892972380736_1_alg».proof.Proof.Gen.KernelIdeal.Skeleton
import proofs.«160719_j29892972380736_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

def out1_2 (x0 : Vec F S5000x128 .f32) (x1 : Vec F S1x128 .f32) : Vec F S5000x128 .f32 :=
  View.canon [⟨r1_0, k1_pay1 (View.ld x0 r1_0) (View.ld x1 r1_1)⟩]

theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
/-- The body keeps its two inputs and leaves the output at the one stored payload, whose rectangle is the whole block. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, after1_0, after1_1, after1_2]
  show _ ⊢ wp _ _ _ (bodyAt1 t) _
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region2.lean ====
import proofs.«160719_j29892972380736_1_alg».proof.Proof.Gen.KernelIdeal.Launch
import proofs.«160719_j29892972380736_1_alg».proof.Proof.Gen.KernelIdeal.Skeleton
import proofs.«160719_j29892972380736_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

def out2_2 (x0 : Vec F S5000x128 .f32) (x1 : Vec F S128x128 .bf16) : Vec F S5000x128 .f32 :=
  View.canon [⟨r2_0, k2_pay1 (View.ld x0 r2_0) (View.ld x1 r2_1)⟩]

theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The body keeps its two inputs and leaves the output at the one stored payload, whose rectangle is the whole block. -/
theorem sound_kernel2 (c : Dev nD) (E : Set ℕ) (i : grid2.Coords) (arg1 : Memref sig .tc .vmem S5000x128 .f32) (harg1 : arg1.IsWhole) (arg2 : Memref sig .tc .vmem S128x128 .bf16) (harg2 : arg2.IsWhole) (arg3 : Memref sig .tc .vmem S5000x128 .f32) (harg3 : arg3.IsWhole)
    (x0 : Vec F S5000x128 .f32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1, after2_0, after2_1, after2_2]
  show _ ⊢ wp _ _ _ (bodyAt2 t) _
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region3.lean ====
import proofs.«160719_j29892972380736_1_alg».proof.Proof.KI.Region1

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 :=
  View.canon [⟨r1_0, k3_pay1 (View.ld x0 r1_0) (View.ld x1 r1_1)⟩]

/-- Regions 1 and 3 run one and the same body. -/
theorem cc3_eq : cc3__bias_relu_kernel (F := F) = cc1__bias_relu_kernel := rfl
theorem out3_eq : out3_2 (F := F) = out1_2 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp only [before3_0, before3_1, after3_0, after3_1, after3_2]
  show _ ⊢ wp _ _ _ (bodyAt3 t) _
  unfold bodyAt3; rw [cc3_eq, out3_eq]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩⟩
  iapply (sound_kernel1 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region4.lean ====
import proofs.«160719_j29892972380736_1_alg».proof.Proof.KI.Region2

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x128 .f32) (x1 : Vec F S128x128 .bf16) : Vec F S5000x128 .f32 :=
  View.canon [⟨r2_0, k4_pay1 (View.ld x0 r2_0) (View.ld x1 r2_1)⟩]

/-- Regions 2 and 4 run one and the same body. -/
theorem cc4_eq : cc4__matmul_kernel (F := F) = cc2__matmul_kernel := rfl
theorem out4_eq : out4_2 (F := F) = out2_2 := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1, after4_0, after4_1, after4_2]
  show _ ⊢ wp _ _ _ (bodyAt4 t) _
  unfold bodyAt4; rw [cc4_eq, out4_eq]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩⟩
  iapply (sound_kernel2 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region5.lean ====
import proofs.«160719_j29892972380736_1_alg».proof.Proof.KI.Region1

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S5000x128 .f32) (x1 : Vec F S1x128 .f32) : Vec F S5000x128 .f32 :=
  View.canon [⟨r1_0, k5_pay1 (View.ld x0 r1_0) (View.ld x1 r1_1)⟩]

/-- Regions 1 and 5 run one and the same body. -/
theorem cc5_eq : cc5__bias_relu_kernel (F := F) = cc1__bias_relu_kernel := rfl
theorem out5_eq : out5_2 (F := F) = out1_2 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, after5_0, after5_1, after5_2]
  show _ ⊢ wp _ _ _ (bodyAt5 t) _
  unfold bodyAt5; rw [cc5_eq, out5_eq]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩⟩
  iapply (sound_kernel1 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region6.lean ====
import proofs.«160719_j29892972380736_1_alg».proof.Proof.KI.Region2

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S5000x128 .f32) (x1 : Vec F S128x128 .bf16) : Vec F S5000x128 .f32 :=
  View.canon [⟨r2_0, k6_pay1 (View.ld x0 r2_0) (View.ld x1 r2_1)⟩]

/-- Regions 2 and 6 run one and the same body. -/
theorem cc6_eq : cc6__matmul_kernel (F := F) = cc2__matmul_kernel := rfl
theorem out6_eq : out6_2 (F := F) = out2_2 := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  simp only [before6_0, before6_1, after6_0, after6_1, after6_2]
  show _ ⊢ wp _ _ _ (bodyAt6 t) _
  unfold bodyAt6; rw [cc6_eq, out6_eq]
  rw [show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩⟩
  iapply (sound_kernel2 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region7.lean ====
import proofs.«160719_j29892972380736_1_alg».proof.Proof.KI.Region1

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_2 (x0 : Vec F S5000x128 .f32) (x1 : Vec F S1x128 .f32) : Vec F S5000x128 .f32 :=
  View.canon [⟨r1_0, k7_pay1 (View.ld x0 r1_0) (View.ld x1 r1_1)⟩]

/-- Regions 1 and 7 run one and the same body. -/
theorem cc7_eq : cc7__bias_relu_kernel (F := F) = cc1__bias_relu_kernel := rfl
theorem out7_eq : out7_2 (F := F) = out1_2 := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem after7_0 (c : Dev nD) (t : Fin cfg7.N) : (dat7 V c).after 0 t = iblk7 V c 0 t := rfl
theorem after7_1 (c : Dev nD) (t : Fin cfg7.N) : (dat7 V c).after 1 t = iblk7 V c 1 t := rfl
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  simp only [before7_0, before7_1, after7_0, after7_1, after7_2]
  show _ ⊢ wp _ _ _ (bodyAt7 t) _
  unfold bodyAt7; rw [cc7_eq, out7_eq]
  rw [show (dat7 V c).Φ t.succ = (dat7 V c).Φ t.castSucc from rfl,
    show (dat7 V c).owesAt () t.succ = (dat7 V c).owesAt () t.castSucc from rfl]
  iintro ⟨HΦ, Ho, ⟨%d0, H0⟩, ⟨%d1, H1⟩, ⟨%d2, H2⟩⟩
  iapply (sound_kernel1 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region8.lean ====
import proofs.«160719_j29892972380736_1_alg».proof.Proof.KI.Region2

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_2 (x0 : Vec F S5000x128 .f32) (x1 : Vec F S128x128 .bf16) : Vec F S5000x128 .f32 :=
  View.canon [⟨r2_0, k8_pay1 (View.ld x0 r2_0) (View.ld x1 r2_1)⟩]

/-- Regions 2 and 8 run one and the same body. -/
theorem cc8_eq : cc8__matmul_kernel (F := F) = cc2__matmul_kernel := rfl
theorem out8_eq : out8_2 (F := F) = out2_2 := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem after8_0 (c : Dev nD) (t : Fin cfg8.N) : (dat8 V c).after 0 t = iblk8 V c 0 t := rfl
theorem after8_1 (c : Dev nD) (t : Fin cfg8.N) : (dat8 V c).after 1 t = iblk8 V c 1 t := rfl
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  simp only [before8_0, before8_1, after8_0, after8_1, after8_2]
  show _ ⊢ wp _ _ _ (bodyAt8 t) _
  unfold bodyAt8; rw [cc8_eq, out8_eq]
  rw [show (dat8 V c).Φ t.succ = (dat8 V c).Φ t.castSucc from rfl,
    show (dat8 V c).owesAt () t.succ = (dat8 V c).owesAt () t.castSucc from rfl]
  iintro ⟨HΦ, Ho, ⟨%d0, H0⟩, ⟨%d1, H1⟩, ⟨%d2, H2⟩⟩
  iapply (sound_kernel2 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Region9.lean ====
import proofs.«160719_j29892972380736_1_alg».proof.Proof.KI.Region1

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_2 (x0 : Vec F S5000x128 .f32) (x1 : Vec F S1x128 .f32) : Vec F S5000x128 .f32 :=
  View.canon [⟨r1_0, k9_pay1 (View.ld x0 r1_0) (View.ld x1 r1_1)⟩]

/-- Regions 1 and 9 run one and the same body. -/
theorem cc9_eq : cc9__bias_relu_kernel (F := F) = cc1__bias_relu_kernel := rfl
theorem out9_eq : out9_2 (F := F) = out1_2 := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem after9_0 (c : Dev nD) (t : Fin cfg9.N) : (dat9 V c).after 0 t = iblk9 V c 0 t := rfl
theorem after9_1 (c : Dev nD) (t : Fin cfg9.N) : (dat9 V c).after 1 t = iblk9 V c 1 t := rfl
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp only [before9_0, before9_1, after9_0, after9_1, after9_2]
  show _ ⊢ wp _ _ _ (bodyAt9 t) _
  unfold bodyAt9; rw [cc9_eq, out9_eq]
  rw [show (dat9 V c).Φ t.succ = (dat9 V c).Φ t.castSucc from rfl,
    show (dat9 V c).owesAt () t.succ = (dat9 V c).owesAt () t.castSucc from rfl]
  iintro ⟨HΦ, Ho, ⟨%d0, H0⟩, ⟨%d1, H1⟩, ⟨%d2, H2⟩⟩
  iapply (sound_kernel1 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Rgn

end
-- ==== Proof.KI.Outs.lean ====
import proofs.«160719_j29892972380736_1_alg».proof.Proof.KI.Region0
import proofs.«160719_j29892972380736_1_alg».proof.Proof.KI.Region1
import proofs.«160719_j29892972380736_1_alg».proof.Proof.KI.Region2
import proofs.«160719_j29892972380736_1_alg».proof.Proof.KI.Region3
import proofs.«160719_j29892972380736_1_alg».proof.Proof.KI.Region4
import proofs.«160719_j29892972380736_1_alg».proof.Proof.KI.Region5
import proofs.«160719_j29892972380736_1_alg».proof.Proof.KI.Region6
import proofs.«160719_j29892972380736_1_alg».proof.Proof.KI.Region7
import proofs.«160719_j29892972380736_1_alg».proof.Proof.KI.Region8
import proofs.«160719_j29892972380736_1_alg».proof.Proof.KI.Region9
import proofs.«160719_j29892972380736_1_alg».proof.Proof.Gen.KernelIdeal.Regions

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def putOut (o : Outs (F := F)) (J : ℕ) (r : Ref sig .tc) (v : (c : Dev nD) → Buf (Elt F) ((c : Thread nD τ).loc r)) : Outs (F := F) :=
  fun J' r' c => if h : J' = J ∧ r' = r then h.2 ▸ v c else o J' r' c

theorem putOut_same (o : Outs (F := F)) (J : ℕ) (r : Ref sig .tc) (v : (c : Dev nD) → Buf (Elt F) ((c : Thread nD τ).loc r)) (c : Dev nD) :
    putOut o J r v J r c = v c := by
  unfold putOut; rw [dif_pos ⟨rfl, rfl⟩]

theorem putOut_ne (o : Outs (F := F)) (J : ℕ) (r : Ref sig .tc) (v : (c : Dev nD) → Buf (Elt F) ((c : Thread nD τ).loc r)) (J' : ℕ) (r' : Ref sig .tc) (c : Dev nD)
    (h : J' ≠ J) : putOut o J r v J' r' c = o J' r' c := by
  unfold putOut; rw [dif_neg (fun hh => h hh.1)]

def outs0 : Outs (F := F) := fun _ r c => m ((c : Thread nD τ).loc r)

def outs1 : Outs (F := F) := putOut (outs0 m) 2 main_v31 (fun c => (dat0 (atTc (V1 m)) c).arrAt 2 cfg0.N)

def outs2 : Outs (F := F) := putOut (outs1 m) 4 main_v47 (fun c => (dat1 (atTc (V3 m (outs1 m))) c).arrAt 2 cfg1.N)

def outs3 : Outs (F := F) := putOut (outs2 m) 6 main_v50 (fun c => (dat2 (atTc (V5 m (outs2 m))) c).arrAt 2 cfg2.N)

def outs4 : Outs (F := F) := putOut (outs3 m) 8 main_v66 (fun c => (dat3 (atTc (V7 m (outs3 m))) c).arrAt 2 cfg3.N)

def outs5 : Outs (F := F) := putOut (outs4 m) 10 main_v69 (fun c => (dat4 (atTc (V9 m (outs4 m))) c).arrAt 2 cfg4.N)

def outs6 : Outs (F := F) := putOut (outs5 m) 12 main_v85 (fun c => (dat5 (atTc (V11 m (outs5 m))) c).arrAt 2 cfg5.N)

def outs7 : Outs (F := F) := putOut (outs6 m) 14 main_v88 (fun c => (dat6 (atTc (V13 m (outs6 m))) c).arrAt 2 cfg6.N)

def outs8 : Outs (F := F) := putOut (outs7 m) 16 main_v104 (fun c => (dat7 (atTc (V15 m (outs7 m))) c).arrAt 2 cfg7.N)

def outs9 : Outs (F := F) := putOut (outs8 m) 18 main_v107 (fun c => (dat8 (atTc (V17 m (outs8 m))) c).arrAt 2 cfg8.N)

def outs10 : Outs (F := F) := putOut (outs9 m) 20 main_v123 (fun c => (dat9 (atTc (V19 m (outs9 m))) c).arrAt 2 cfg9.N)

def outs : Outs (F := F) := outs10 m

def pdats : (p : Fin 10) → (c : Dev nD) → Dat τ (Elt F) Unit ℕ (UR sig nD τ) ℕ (cfgs p) c
  | ⟨0, _⟩ => fun c => dat0 (atTc (V1 m)) c
  | ⟨1, _⟩ => fun c => dat1 (atTc (V3 m (outs m))) c
  | ⟨2, _⟩ => fun c => dat2 (atTc (V5 m (outs m))) c
  | ⟨3, _⟩ => fun c => dat3 (atTc (V7 m (outs m))) c
  | ⟨4, _⟩ => fun c => dat4 (atTc (V9 m (outs m))) c
  | ⟨5, _⟩ => fun c => dat5 (atTc (V11 m (outs m))) c
  | ⟨6, _⟩ => fun c => dat6 (atTc (V13 m (outs m))) c
  | ⟨7, _⟩ => fun c => dat7 (atTc (V15 m (outs m))) c
  | ⟨8, _⟩ => fun c => dat8 (atTc (V17 m (outs m))) c
  | ⟨9, _⟩ => fun c => dat9 (atTc (V19 m (outs m))) c

theorem outs_le10 (J : ℕ) (r : Ref sig .tc) (c : Dev nD) : outs m J r c = outs10 m J r c := rfl
theorem outs_le9 (J : ℕ) (hJ : J ≤ 18) (r : Ref sig .tc) (c : Dev nD) : outs m J r c = outs9 m J r c := by
  rw [outs_le10 m J r c]; unfold outs10; exact putOut_ne _ _ _ _ _ _ _ (by omega)
theorem outs_le8 (J : ℕ) (hJ : J ≤ 16) (r : Ref sig .tc) (c : Dev nD) : outs m J r c = outs8 m J r c := by
  rw [outs_le9 m J (by omega) r c]; unfold outs9; exact putOut_ne _ _ _ _ _ _ _ (by omega)
theorem outs_le7 (J : ℕ) (hJ : J ≤ 14) (r : Ref sig .tc) (c : Dev nD) : outs m J r c = outs7 m J r c := by
  rw [outs_le8 m J (by omega) r c]; unfold outs8; exact putOut_ne _ _ _ _ _ _ _ (by omega)
theorem outs_le6 (J : ℕ) (hJ : J ≤ 12) (r : Ref sig .tc) (c : Dev nD) : outs m J r c = outs6 m J r c := by
  rw [outs_le7 m J (by omega) r c]; unfold outs7; exact putOut_ne _ _ _ _ _ _ _ (by omega)
theorem outs_le5 (J : ℕ) (hJ : J ≤ 10) (r : Ref sig .tc) (c : Dev nD) : outs m J r c = outs5 m J r c := by
  rw [outs_le6 m J (by omega) r c]; unfold outs6; exact putOut_ne _ _ _ _ _ _ _ (by omega)
theorem outs_le4 (J : ℕ) (hJ : J ≤ 8) (r : Ref sig .tc) (c : Dev nD) : outs m J r c = outs4 m J r c := by
  rw [outs_le5 m J (by omega) r c]; unfold outs5; exact putOut_ne _ _ _ _ _ _ _ (by omega)
theorem outs_le3 (J : ℕ) (hJ : J ≤ 6) (r : Ref sig .tc) (c : Dev nD) : outs m J r c = outs3 m J r c := by
  rw [outs_le4 m J (by omega) r c]; unfold outs4; exact putOut_ne _ _ _ _ _ _ _ (by omega)
theorem outs_le2 (J : ℕ) (hJ : J ≤ 4) (r : Ref sig .tc) (c : Dev nD) : outs m J r c = outs2 m J r c := by
  rw [outs_le3 m J (by omega) r c]; unfold outs3; exact putOut_ne _ _ _ _ _ _ _ (by omega)
theorem outs_le1 (J : ℕ) (hJ : J ≤ 2) (r : Ref sig .tc) (c : Dev nD) : outs m J r c = outs1 m J r c := by
  rw [outs_le2 m J (by omega) r c]; unfold outs2; exact putOut_ne _ _ _ _ _ _ _ (by omega)

section Congr
variable (o o' : Outs (F := F))
theorem Vc2 (h : ∀ J' ≤ 2, ∀ r c, o J' r c = o' J' r c) (c : Dev nD) : V2 m o c = V2 m o' c := by
  show Function.update (V1 m c) _ (o 2 main_v31 c) = Function.update (V1 m c) _ (o' 2 main_v31 c)
  rw [h 2 (le_refl _)]
theorem Vc3 (h : ∀ J' ≤ 2, ∀ r c, o J' r c = o' J' r c) (c : Dev nD) : V3 m o c = V3 m o' c :=
  congrArg (StableHlo.after hostOps1) (Vc2 m o o' h c)
theorem Vc4 (h : ∀ J' ≤ 4, ∀ r c, o J' r c = o' J' r c) (c : Dev nD) : V4 m o c = V4 m o' c := by
  show Function.update (V3 m o c) _ (o 4 main_v47 c) = Function.update (V3 m o' c) _ (o' 4 main_v47 c)
  rw [h 4 (le_refl _), Vc3 m o o' (fun J' hJ' => h J' (by omega)) c]
theorem Vc5 (h : ∀ J' ≤ 4, ∀ r c, o J' r c = o' J' r c) (c : Dev nD) : V5 m o c = V5 m o' c :=
  congrArg (StableHlo.after hostOps2) (Vc4 m o o' h c)
theorem Vc6 (h : ∀ J' ≤ 6, ∀ r c, o J' r c = o' J' r c) (c : Dev nD) : V6 m o c = V6 m o' c := by
  show Function.update (V5 m o c) _ (o 6 main_v50 c) = Function.update (V5 m o' c) _ (o' 6 main_v50 c)
  rw [h 6 (le_refl _), Vc5 m o o' (fun J' hJ' => h J' (by omega)) c]
theorem Vc7 (h : ∀ J' ≤ 6, ∀ r c, o J' r c = o' J' r c) (c : Dev nD) : V7 m o c = V7 m o' c :=
  congrArg (StableHlo.after hostOps3) (Vc6 m o o' h c)
theorem Vc8 (h : ∀ J' ≤ 8, ∀ r c, o J' r c = o' J' r c) (c : Dev nD) : V8 m o c = V8 m o' c := by
  show Function.update (V7 m o c) _ (o 8 main_v66 c) = Function.update (V7 m o' c) _ (o' 8 main_v66 c)
  rw [h 8 (le_refl _), Vc7 m o o' (fun J' hJ' => h J' (by omega)) c]
theorem Vc9 (h : ∀ J' ≤ 8, ∀ r c, o J' r c = o' J' r c) (c : Dev nD) : V9 m o c = V9 m o' c :=
  congrArg (StableHlo.after hostOps4) (Vc8 m o o' h c)
theorem Vc10 (h : ∀ J' ≤ 10, ∀ r c, o J' r c = o' J' r c) (c : Dev nD) : V10 m o c = V10 m o' c := by
  show Function.update (V9 m o c) _ (o 10 main_v69 c) = Function.update (V9 m o' c) _ (o' 10 main_v69 c)
  rw [h 10 (le_refl _), Vc9 m o o' (fun J' hJ' => h J' (by omega)) c]
theorem Vc11 (h : ∀ J' ≤ 10, ∀ r c, o J' r c = o' J' r c) (c : Dev nD) : V11 m o c = V11 m o' c :=
  congrArg (StableHlo.after hostOps5) (Vc10 m o o' h c)
theorem Vc12 (h : ∀ J' ≤ 12, ∀ r c, o J' r c = o' J' r c) (c : Dev nD) : V12 m o c = V12 m o' c := by
  show Function.update (V11 m o c) _ (o 12 main_v85 c) = Function.update (V11 m o' c) _ (o' 12 main_v85 c)
  rw [h 12 (le_refl _), Vc11 m o o' (fun J' hJ' => h J' (by omega)) c]
theorem Vc13 (h : ∀ J' ≤ 12, ∀ r c, o J' r c = o' J' r c) (c : Dev nD) : V13 m o c = V13 m o' c :=
  congrArg (StableHlo.after hostOps6) (Vc12 m o o' h c)
theorem Vc14 (h : ∀ J' ≤ 14, ∀ r c, o J' r c = o' J' r c) (c : Dev nD) : V14 m o c = V14 m o' c := by
  show Function.update (V13 m o c) _ (o 14 main_v88 c) = Function.update (V13 m o' c) _ (o' 14 main_v88 c)
  rw [h 14 (le_refl _), Vc13 m o o' (fun J' hJ' => h J' (by omega)) c]
theorem Vc15 (h : ∀ J' ≤ 14, ∀ r c, o J' r c = o' J' r c) (c : Dev nD) : V15 m o c = V15 m o' c :=
  congrArg (StableHlo.after hostOps7) (Vc14 m o o' h c)
theorem Vc16 (h : ∀ J' ≤ 16, ∀ r c, o J' r c = o' J' r c) (c : Dev nD) : V16 m o c = V16 m o' c := by
  show Function.update (V15 m o c) _ (o 16 main_v104 c) = Function.update (V15 m o' c) _ (o' 16 main_v104 c)
  rw [h 16 (le_refl _), Vc15 m o o' (fun J' hJ' => h J' (by omega)) c]
theorem Vc17 (h : ∀ J' ≤ 16, ∀ r c, o J' r c = o' J' r c) (c : Dev nD) : V17 m o c = V17 m o' c :=
  congrArg (StableHlo.after hostOps8) (Vc16 m o o' h c)
theorem Vc18 (h : ∀ J' ≤ 18, ∀ r c, o J' r c = o' J' r c) (c : Dev nD) : V18 m o c = V18 m o' c := by
  show Function.update (V17 m o c) _ (o 18 main_v107 c) = Function.update (V17 m o' c) _ (o' 18 main_v107 c)
  rw [h 18 (le_refl _), Vc17 m o o' (fun J' hJ' => h J' (by omega)) c]
theorem Vc19 (h : ∀ J' ≤ 18, ∀ r c, o J' r c = o' J' r c) (c : Dev nD) : V19 m o c = V19 m o' c :=
  congrArg (StableHlo.after hostOps9) (Vc18 m o o' h c)
theorem Vc20 (h : ∀ J' ≤ 20, ∀ r c, o J' r c = o' J' r c) (c : Dev nD) : V20 m o c = V20 m o' c := by
  show Function.update (V19 m o c) _ (o 20 main_v123 c) = Function.update (V19 m o' c) _ (o' 20 main_v123 c)
  rw [h 20 (le_refl _), Vc19 m o o' (fun J' hJ' => h J' (by omega)) c]
end Congr

theorem outs_at0 (c : Dev nD) : outs m 2 main_v31 c = (dat0 (atTc (V1 m)) c).arrAt 2 cfg0.N := by
  rw [outs_le1 m 2 (le_refl _) main_v31 c]; unfold outs1; exact putOut_same _ _ _ _ _
theorem entry_eq1 : V3 m (outs1 m) = V3 m (outs m) :=
  funext fun c => (Vc3 m (outs m) (outs1 m) (fun J' hJ' r c => outs_le1 m J' hJ' r c) c).symm
theorem outs_at1 (c : Dev nD) : outs m 4 main_v47 c = (dat1 (atTc (V3 m (outs m))) c).arrAt 2 cfg1.N := by
  rw [outs_le2 m 4 (le_refl _) main_v47 c]; unfold outs2; rw [putOut_same, entry_eq1]
theorem entry_eq2 : V5 m (outs2 m) = V5 m (outs m) :=
  funext fun c => (Vc5 m (outs m) (outs2 m) (fun J' hJ' r c => outs_le2 m J' hJ' r c) c).symm
theorem outs_at2 (c : Dev nD) : outs m 6 main_v50 c = (dat2 (atTc (V5 m (outs m))) c).arrAt 2 cfg2.N := by
  rw [outs_le3 m 6 (le_refl _) main_v50 c]; unfold outs3; rw [putOut_same, entry_eq2]
theorem entry_eq3 : V7 m (outs3 m) = V7 m (outs m) :=
  funext fun c => (Vc7 m (outs m) (outs3 m) (fun J' hJ' r c => outs_le3 m J' hJ' r c) c).symm
theorem outs_at3 (c : Dev nD) : outs m 8 main_v66 c = (dat3 (atTc (V7 m (outs m))) c).arrAt 2 cfg3.N := by
  rw [outs_le4 m 8 (le_refl _) main_v66 c]; unfold outs4; rw [putOut_same, entry_eq3]
theorem entry_eq4 : V9 m (outs4 m) = V9 m (outs m) :=
  funext fun c => (Vc9 m (outs m) (outs4 m) (fun J' hJ' r c => outs_le4 m J' hJ' r c) c).symm
theorem outs_at4 (c : Dev nD) : outs m 10 main_v69 c = (dat4 (atTc (V9 m (outs m))) c).arrAt 2 cfg4.N := by
  rw [outs_le5 m 10 (le_refl _) main_v69 c]; unfold outs5; rw [putOut_same, entry_eq4]
theorem entry_eq5 : V11 m (outs5 m) = V11 m (outs m) :=
  funext fun c => (Vc11 m (outs m) (outs5 m) (fun J' hJ' r c => outs_le5 m J' hJ' r c) c).symm
theorem outs_at5 (c : Dev nD) : outs m 12 main_v85 c = (dat5 (atTc (V11 m (outs m))) c).arrAt 2 cfg5.N := by
  rw [outs_le6 m 12 (le_refl _) main_v85 c]; unfold outs6; rw [putOut_same, entry_eq5]
theorem entry_eq6 : V13 m (outs6 m) = V13 m (outs m) :=
  funext fun c => (Vc13 m (outs m) (outs6 m) (fun J' hJ' r c => outs_le6 m J' hJ' r c) c).symm
theorem outs_at6 (c : Dev nD) : outs m 14 main_v88 c = (dat6 (atTc (V13 m (outs m))) c).arrAt 2 cfg6.N := by
  rw [outs_le7 m 14 (le_refl _) main_v88 c]; unfold outs7; rw [putOut_same, entry_eq6]
theorem entry_eq7 : V15 m (outs7 m) = V15 m (outs m) :=
  funext fun c => (Vc15 m (outs m) (outs7 m) (fun J' hJ' r c => outs_le7 m J' hJ' r c) c).symm
theorem outs_at7 (c : Dev nD) : outs m 16 main_v104 c = (dat7 (atTc (V15 m (outs m))) c).arrAt 2 cfg7.N := by
  rw [outs_le8 m 16 (le_refl _) main_v104 c]; unfold outs8; rw [putOut_same, entry_eq7]
theorem entry_eq8 : V17 m (outs8 m) = V17 m (outs m) :=
  funext fun c => (Vc17 m (outs m) (outs8 m) (fun J' hJ' r c => outs_le8 m J' hJ' r c) c).symm
theorem outs_at8 (c : Dev nD) : outs m 18 main_v107 c = (dat8 (atTc (V17 m (outs m))) c).arrAt 2 cfg8.N := by
  rw [outs_le9 m 18 (le_refl _) main_v107 c]; unfold outs9; rw [putOut_same, entry_eq8]
theorem entry_eq9 : V19 m (outs9 m) = V19 m (outs m) :=
  funext fun c => (Vc19 m (outs m) (outs9 m) (fun J' hJ' r c => outs_le9 m J' hJ' r c) c).symm
theorem outs_at9 (c : Dev nD) : outs m 20 main_v123 c = (dat9 (atTc (V19 m (outs m))) c).arrAt 2 cfg9.N := by
  rw [outs_le10 m 20 main_v123 c]; unfold outs10; rw [putOut_same, entry_eq9]

local notation "𝕄" => MT nD τ sig Unit (Elt F) ℕ (UR sig nD τ) ℕ

abbrev noVar : Variants := Variants.none

abbrev noLev : GSem nD τ sig → Finset Unit := fun _ => ∅
abbrev lvZero : GSem nD τ sig → Unit → ℕ := fun _ _ => 0

abbrev Rest (c : Dev nD) : sProp 𝕄 := iprop((∃ r, prngReg c r) ∗ ∃ W, owes (c : Thread nD τ) (0 : CellTallies nD τ sig Unit) W)

abbrev Rests : Fin 11 → Dev nD → sProp 𝕄 := fun _ c => Rest c

end Cert.KernelIdeal.Rgn

end
-- ==== Proof.KI.SegOf.lean ====
import proofs.«160719_j29892972380736_1_alg».proof.Proof.KI.Outs

noncomputable section

namespace Cert.KernelIdeal.Rgn

open Cert.KernelIdeal Cert.KernelIdeal.Gen Idealize.ShloMosaic Idealize.ShloMosaic.TcCoe
open Idealize.SL Idealize.SL.RA Idealize.SL.BI Idealize.SL.BI.BIBase Idealize.SL.ProofMode
open scoped Idealize.SL.BI
open Idealize.ShloMosaic.Pipeline (BodyObligation)

variable {F : FTy → Type} [FloatOps F] (m : (ℓ : Loc nD τ sig) → Buf (Elt F) ℓ)

set_option backward.isDefEq.respectTransparency.types false in
/-- Region `p` as one step of the run: the contents `Vi` become `Vi` with the output array (window `wo`) replaced by `o`, what the proof data ends at there; the input arrays are unchanged. -/
def regOf (p : Fin 10) (L : Pipeline.LaunchFacts (nD := nD) (τ := τ) cfgs p) (Vi : Dev nD → Valuation τ sig (Elt F))
    (wo : Fin (cfgs p).W) (o : (c : Dev nD) → Buf (Elt F) ((c : Thread nD τ).loc (Pipeline.arrRef (cfgs p).spec wo)))
    (hb : ∀ c, BodyObligation (pdats m p c) (defs₀ (F := F)) noVar () Set.univ)
    (howed : ∀ c t, (pdats m p c).owed t = 0) (hrec : ∀ c, (pdats m p c).recorded 0 = Set.univ)
    (hq : ∀ c w, (pdats m p c).q w = fullShare)
    (hA : ∀ c w, (pdats m p c).A w = atTc Vi c (Pipeline.arrRef (cfgs p).spec w))
    (hΦ : ∀ c i, (pdats m p c).Φ i = Pipeline.ΦA (cfgs p).spec c)
    (hO : ∀ c, o c = (pdats m p c).arrAt wo (cfgs p).N)
    (hi : ∀ w, w ≠ wo → ((cfgs p).win w).isOut = false) :
    Pipeline.RegionSeg (pcfgs (F := F)) adm (pdats m) () defs₀ noVar noLev lvZero p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ noLev lvZero p howed
  pre c := iprop(StableHlo.held (c : Thread nD τ) (Pipeline.ucRefs τ sig) (Vi c) ∗ Rest c)
  post c := iprop(StableHlo.held (c : Thread nD τ) (Pipeline.ucRefs τ sig) (Function.update (Vi c) (Proc.devRef .tc (Pipeline.arrRef (cfgs p).spec wo)) (o c)) ∗ Rest c)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) L.win L.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atTc Vi c) (atTc (fun c => Function.update (Vi c) _ (o c)) c) ((pdats m p c).arrAt · (cfgs p).N)
      (fun w => by
        rcases eq_or_ne w wo with rfl | h
        · exact (hO c).symm.trans (Function.update_self _ _ (Vi c)).symm
        · exact (((pdats m p c).arrAt_in w (hi w h) _).trans (hA c w)).trans
            (Function.update_of_ne (StableHlo.devRef_ne_of_ne fun e => h (L.win.arr_inj e)) _ _).symm)
      (fun b hb => Function.update_of_ne (StableHlo.devRef_ne_of_ne fun e => hb (Finset.mem_image.mpr ⟨wo, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.KernelIdeal.Rgn

end
-- ==== Proof.KI.Seg0.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg0 : Pipeline.RegionSeg (pcfgs (F := F)) adm (pdats m) () defs₀ noVar noLev lvZero 0 :=
  regOf m 0 launch0 (V1 m) (2 : Fin 3) (outs m 2 main_v31) (body_obligation0 _)
    (fun _ _ => rfl) (fun _ => rfl) (fun _ _ => rfl) (fun _ _ => rfl) (fun _ _ => rfl) (outs_at0 m) (by decide)

end Cert.KernelIdeal.Rgn

end
-- ==== Proof.KI.Seg1.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg1 : Pipeline.RegionSeg (pcfgs (F := F)) adm (pdats m) () defs₀ noVar noLev lvZero 1 :=
  regOf m 1 launch1 (V3 m (outs m)) (2 : Fin 3) (outs m 4 main_v47) (body_obligation1 _)
    (fun _ _ => rfl) (fun _ => rfl) (fun _ _ => rfl) (fun _ _ => rfl) (fun _ _ => rfl) (outs_at1 m) (by decide)

end Cert.KernelIdeal.Rgn

end
-- ==== Proof.KI.Seg2.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg2 : Pipeline.RegionSeg (pcfgs (F := F)) adm (pdats m) () defs₀ noVar noLev lvZero 2 :=
  regOf m 2 launch2 (V5 m (outs m)) (2 : Fin 3) (outs m 6 main_v50) (body_obligation2 _)
    (fun _ _ => rfl) (fun _ => rfl) (fun _ _ => rfl) (fun _ _ => rfl) (fun _ _ => rfl) (outs_at2 m) (by decide)

end Cert.KernelIdeal.Rgn

end
-- ==== Proof.KI.Seg3.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg3 : Pipeline.RegionSeg (pcfgs (F := F)) adm (pdats m) () defs₀ noVar noLev lvZero 3 :=
  regOf m 3 launch3 (V7 m (outs m)) (2 : Fin 3) (outs m 8 main_v66) (body_obligation3 _)
    (fun _ _ => rfl) (fun _ => rfl) (fun _ _ => rfl) (fun _ _ => rfl) (fun _ _ => rfl) (outs_at3 m) (by decide)

end Cert.KernelIdeal.Rgn

end
-- ==== Proof.KI.Seg4.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg4 : Pipeline.RegionSeg (pcfgs (F := F)) adm (pdats m) () defs₀ noVar noLev lvZero 4 :=
  regOf m 4 launch4 (V9 m (outs m)) (2 : Fin 3) (outs m 10 main_v69) (body_obligation4 _)
    (fun _ _ => rfl) (fun _ => rfl) (fun _ _ => rfl) (fun _ _ => rfl) (fun _ _ => rfl) (outs_at4 m) (by decide)

end Cert.KernelIdeal.Rgn

end
-- ==== Proof.KI.Seg5.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg5 : Pipeline.RegionSeg (pcfgs (F := F)) adm (pdats m) () defs₀ noVar noLev lvZero 5 :=
  regOf m 5 launch5 (V11 m (outs m)) (2 : Fin 3) (outs m 12 main_v85) (body_obligation5 _)
    (fun _ _ => rfl) (fun _ => rfl) (fun _ _ => rfl) (fun _ _ => rfl) (fun _ _ => rfl) (outs_at5 m) (by decide)

end Cert.KernelIdeal.Rgn

end
-- ==== Proof.KI.Seg6.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg6 : Pipeline.RegionSeg (pcfgs (F := F)) adm (pdats m) () defs₀ noVar noLev lvZero 6 :=
  regOf m 6 launch6 (V13 m (outs m)) (2 : Fin 3) (outs m 14 main_v88) (body_obligation6 _)
    (fun _ _ => rfl) (fun _ => rfl) (fun _ _ => rfl) (fun _ _ => rfl) (fun _ _ => rfl) (outs_at6 m) (by decide)

end Cert.KernelIdeal.Rgn

end
-- ==== Proof.KI.Seg7.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg7 : Pipeline.RegionSeg (pcfgs (F := F)) adm (pdats m) () defs₀ noVar noLev lvZero 7 :=
  regOf m 7 launch7 (V15 m (outs m)) (2 : Fin 3) (outs m 16 main_v104) (body_obligation7 _)
    (fun _ _ => rfl) (fun _ => rfl) (fun _ _ => rfl) (fun _ _ => rfl) (fun _ _ => rfl) (outs_at7 m) (by decide)

end Cert.KernelIdeal.Rgn

end
-- ==== Proof.KI.Seg8.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg8 : Pipeline.RegionSeg (pcfgs (F := F)) adm (pdats m) () defs₀ noVar noLev lvZero 8 :=
  regOf m 8 launch8 (V17 m (outs m)) (2 : Fin 3) (outs m 18 main_v107) (body_obligation8 _)
    (fun _ _ => rfl) (fun _ => rfl) (fun _ _ => rfl) (fun _ _ => rfl) (fun _ _ => rfl) (outs_at8 m) (by decide)

end Cert.KernelIdeal.Rgn

end
-- ==== Proof.KI.Seg9.lean ====
import proofs.«160719_j29892972380736_1_alg».proof.Proof.KI.Outs
import proofs.«160719_j29892972380736_1_alg».proof.Proof.KI.SegOf

noncomputable section

namespace Cert.KernelIdeal.Rgn

open Cert.KernelIdeal Cert.KernelIdeal.Gen Idealize.ShloMosaic

variable {F : FTy → Type} [FloatOps F] (m : (ℓ : Loc nD τ sig) → Buf (Elt F) ℓ)

def reg9 : Pipeline.RegionSeg (pcfgs (F := F)) adm (pdats m) () defs₀ noVar noLev lvZero 9 :=
  regOf m 9 launch9 (V19 m (outs m)) (2 : Fin 3) (outs m 20 main_v123) (body_obligation9 _)
    (fun _ _ => rfl) (fun _ => rfl) (fun _ _ => rfl) (fun _ _ => rfl) (fun _ _ => rfl) (outs_at9 m) (by decide)

end Cert.KernelIdeal.Rgn

end
-- ==== Proof.KI.Frame.lean ====
import proofs.«160719_j29892972380736_1_alg».proof.Proof.KI.Seg0
import proofs.«160719_j29892972380736_1_alg».proof.Proof.KI.Seg1
import proofs.«160719_j29892972380736_1_alg».proof.Proof.KI.Seg2
import proofs.«160719_j29892972380736_1_alg».proof.Proof.KI.Seg3
import proofs.«160719_j29892972380736_1_alg».proof.Proof.KI.Seg4
import proofs.«160719_j29892972380736_1_alg».proof.Proof.KI.Seg5
import proofs.«160719_j29892972380736_1_alg».proof.Proof.KI.Seg6
import proofs.«160719_j29892972380736_1_alg».proof.Proof.KI.Seg7
import proofs.«160719_j29892972380736_1_alg».proof.Proof.KI.Seg8
import proofs.«160719_j29892972380736_1_alg».proof.Proof.KI.Seg9

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_rest_core (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ Rests (F := F) 0 c := by
  iintro ⟨-, HO, -, Hp, -⟩
  isplitl [Hp]; · iexists _; iexact Hp
  iexists ∅; iexact HO

theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noLev lvZero)
      ⊢ (|={Set.univ}=> bigSep Finset.univ (Rests (F := F) 0) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (Rests (F := F) 0) : sProp 𝕄) :=
    bigSep_mono fun c _ => launch_rest_core ρ c
  iintro ⟨H, -⟩
  imodintro
  iapply hmono
  iexact H

theorem rest_owes (c : Dev nD) : Rests (F := F) 10 c ⊢ (iprop(∃ W, owes (c : Thread nD τ) (0 : CellTallies nD τ sig Unit) W) : sProp 𝕄) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () noVar noLev lvZero (fun _ _ => rfl) ρ (outs m) (pdats m) 0 (fun _ => iprop(emp))
    (initOf (Pipeline.cells cfgs cellOf_inj) (Pipeline.launchToks cfgs cellOf_inj)) (launch_ghost (F := F)) Rests (launch_rest ρ) rest_owes
    (reg0 m) (fun _ => .rfl) (fun _ => .rfl) (reg1 m) (fun _ => .rfl) (fun _ => .rfl) (reg2 m) (fun _ => .rfl) (fun _ => .rfl) (reg3 m) (fun _ => .rfl) (fun _ => .rfl) (reg4 m) (fun _ => .rfl) (fun _ => .rfl) (reg5 m) (fun _ => .rfl) (fun _ => .rfl) (reg6 m) (fun _ => .rfl) (fun _ => .rfl) (reg7 m) (fun _ => .rfl) (fun _ => .rfl) (reg8 m) (fun _ => .rfl) (fun _ => .rfl) (reg9 m) (fun _ => .rfl) (fun _ => .rfl)

end Cert.KernelIdeal.Rgn

end
-- ==== Proof.KI.Named.lean ====
import proofs.«160719_j29892972380736_1_alg».proof.Proof.KI.Frame

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the ten regions and the host stretches between them, with the result array named at the last valuation. -/
theorem run_named : θ_run defs (onTc (τ := τ) (main (F := F))) ⟨m, fun _ => 0, ρ⟩ (fun r => ∀ c : Dev nD,
      r.2.mem ((c.tc : Thread nD τ).loc main_v139) = V21 m (outs m) c main_v139
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ noVar noLev lvZero m ρ main
    (segs m (outs m) noVar noLev lvZero Rests () (pdats m) (reg0 m) (reg1 m) (reg2 m) (reg3 m) (reg4 m) (reg5 m) (reg6 m) (reg7 m) (reg8 m) (reg9 m))
    (fun c Q => by
      rewrite [main_chain c, Seg.run_eq_chain,
        show ((segs m (outs m) noVar noLev lvZero Rests () (pdats m) (reg0 m) (reg1 m) (reg2 m) (reg3 m) (reg4 m) (reg5 m) (reg6 m) (reg7 m) (reg8 m) (reg9 m)) c).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()),
          StableHlo.seq hostOps6, Prog.lift (.customCall (Pipeline.entry 6) ()),
          StableHlo.seq hostOps7, Prog.lift (.customCall (Pipeline.entry 7) ()),
          StableHlo.seq hostOps8, Prog.lift (.customCall (Pipeline.entry 8) ()),
          StableHlo.seq hostOps9, Prog.lift (.customCall (Pipeline.entry 9) ()),
          StableHlo.seq hostOps10 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (launch_ghost (F := F))
    (T₀ := fun c => iprop(StableHlo.held (c : Thread nD τ) (Pipeline.ucRefs τ sig) (V0 m c) ∗ Rest c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (rest_owes c)⟩)
    (hinit := ?_) (QY := fun c s => s.mem ((c.tc : Thread nD τ).loc main_v139) = V21 m (outs m) c main_v139 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (Rests (F := F) 0)]
    isplitl [Hh]; · iexact Hh
    iexact HE
  · unfold StableHlo.held
    iintro ⟨Hh, HSI⟩
    ihave Hr := (pointsTo_read_all (Pipeline.ucRefs τ sig) (fun b => ((c : Thread nD τ).1, b)) (V21 m (outs m) c) s') $$ [Hh HSI]
    · isplitl [Hh] <;> iassumption
    icases Hr with ⟨%h, HSI⟩
    imodintro
    isplitr
    · ipureintro
      exact ⟨h (Proc.devRef .tc main_v139) (Finset.mem_filter.mpr ⟨StableHlo.devRef_mem_tcRefs main_v139, by decide⟩),
        (h (Proc.devRef .tc main_arg0) (Finset.mem_filter.mpr ⟨StableHlo.devRef_mem_tcRefs main_arg0, by decide⟩)).trans (V21_main_arg0 m (outs m) c),
        (h (Proc.devRef .tc main_arg1) (Finset.mem_filter.mpr ⟨StableHlo.devRef_mem_tcRefs main_arg1, by decide⟩)).trans (V21_main_arg1 m (outs m) c),
        (h (Proc.devRef .tc main_arg2) (Finset.mem_filter.mpr ⟨StableHlo.devRef_mem_tcRefs main_arg2, by decide⟩)).trans (V21_main_arg2 m (outs m) c),
        (h (Proc.devRef .tc main_arg3) (Finset.mem_filter.mpr ⟨StableHlo.devRef_mem_tcRefs main_arg3, by decide⟩)).trans (V21_main_arg3 m (outs m) c),
        (h (Proc.devRef .tc main_arg4) (Finset.mem_filter.mpr ⟨StableHlo.devRef_mem_tcRefs main_arg4, by decide⟩)).trans (V21_main_arg4 m (outs m) c)⟩
    · iexact HSI

end Cert.KernelIdeal.Rgn

end
-- ==== Proof.Spec.lean ====
import proofs.«160719_j29892972380736_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

def srcOf (a1 : (⟨S2x600000, .i32⟩ : BufTy).Contents (Elt F)) : (⟨S650000, .i32⟩ : BufTy).Contents (Elt F) :=
  concatenate S650000 0 [⟨S600000, (shapeCast _ (extractStridedSlice S1x600000 ![0, 0] a1 slices_S2x600000_S1x600000_0_0) shapeCasts_S1x600000_S600000)⟩, ⟨S50000, (iotaInDim S50000 32 0)⟩] concatenates_S600000_S50000_S650000_d0

def dstOf (a1 : (⟨S2x600000, .i32⟩ : BufTy).Contents (Elt F)) : (⟨S650000, .i32⟩ : BufTy).Contents (Elt F) :=
  concatenate S650000 0 [⟨S600000, (shapeCast _ (extractStridedSlice S1x600000 ![1, 0] a1 slices_S2x600000_S1x600000_1_0) shapeCasts_S1x600000_S600000)⟩, ⟨S50000, (iotaInDim S50000 32 0)⟩] concatenates_S600000_S50000_S650000_d0

def wrapIdx (s : (⟨S650000, .i32⟩ : BufTy).Contents (Elt F)) : (⟨S650000, .i32⟩ : BufTy).Contents (Elt F) :=
  select (cmpi .slt s (broadcastInDim S650000 ![] bcast_S_S650000 (constantI S_ 32 0#32))) (addi s (broadcastInDim S650000 ![] bcast_S_S650000 (constantI S_ 32 50000#32))) s

def col (s : (⟨S650000, .i32⟩ : BufTy).Contents (Elt F)) : (⟨S650000x1, .i32⟩ : BufTy).Contents (Elt F) :=
  broadcastInDim S650000x1 ![0] bcast_S650000_S650000x1_0 s

def degOf (ix : (⟨S650000x1, .i32⟩ : BufTy).Contents (Elt F)) : (⟨S50000, .f32⟩ : BufTy).Contents (Elt F) :=
  Host.scatterAdd scatter_S50000_S650000x1_S650000_n_0_0_1 (broadcastInDim S50000 ![] bcast_S_S50000 (constant S_ .f32 0x00000000#32)) ix (broadcastInDim S650000 ![] bcast_S_S650000 (constant S_ .f32 0x3F800000#32))

def normOf (deg : (⟨S50000, .f32⟩ : BufTy).Contents (Elt F)) (src dst : (⟨S650000, .i32⟩ : BufTy).Contents (Elt F)) : (⟨S650000x1, .f32⟩ : BufTy).Contents (Elt F) :=
  broadcastInDim S650000x1 ![0] bcast_S650000_S650000x1_0 (mulf (Host.gather gather_S50000_S650000x1_S650000_n_0_n_n_0_1_1 (Host.rsqrt deg) (col (wrapIdx src))) (Host.gather gather_S50000_S650000x1_S650000_n_0_n_n_0_1_1 (Host.rsqrt deg) (col (wrapIdx dst))))

def nrm (degIx : (⟨S650000, .i32⟩ : BufTy).Contents (Elt F) → (⟨S650000, .i32⟩ : BufTy).Contents (Elt F)) (a1 : (⟨S2x600000, .i32⟩ : BufTy).Contents (Elt F)) : (⟨S650000x1, .f32⟩ : BufTy).Contents (Elt F) :=
  normOf (degOf (col (degIx (dstOf a1)))) (srcOf a1) (dstOf a1)

def aggOf (t : (⟨S50000x128, .f32⟩ : BufTy).Contents (Elt F)) (src dst : (⟨S650000, .i32⟩ : BufTy).Contents (Elt F)) (norm : (⟨S650000x1, .f32⟩ : BufTy).Contents (Elt F)) : (⟨S50000x128, .f32⟩ : BufTy).Contents (Elt F) :=
  Host.scatterAdd scatter_S50000x128_S650000x1_S650000x128_1_0_0_1 (broadcastInDim S50000x128 ![] bcast_S_S50000x128 (constant S_ .f32 0x00000000#32)) (col dst) (mulf (Host.gather gather_S50000x128_S650000x1_S650000x128_1_0_n_n_0_1_1128 t (col (wrapIdx src))) (broadcastInDim S650000x128 ![0, 1] bcast_S650000x1_S650000x128_0_1 norm))

def dense (h : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none h w

def biasRows (b : (⟨S1x128, .f32⟩ : BufTy).Contents (Elt F)) : (⟨S50000x128, .f32⟩ : BufTy).Contents (Elt F) :=
  broadcastInDim S50000x128 ![0, 1] bcast_S1x128_S50000x128_0_1 b

def zerosN : (⟨S50000x128, .f32⟩ : BufTy).Contents (Elt F) :=
  broadcastInDim S50000x128 ![] bcast_S_S50000x128 (constant S_ .f32 0x00000000#32)

def act (agg : (⟨S50000x128, .f32⟩ : BufTy).Contents (Elt F)) (b : (⟨S1x128, .f32⟩ : BufTy).Contents (Elt F)) : (⟨S50000x128, .f32⟩ : BufTy).Contents (Elt F) :=
  maximumf (addf agg (biasRows b)) zerosN

def asRow (b : (⟨S128, .f32⟩ : BufTy).Contents (Elt F)) : (⟨S1x128, .f32⟩ : BufTy).Contents (Elt F) :=
  broadcastInDim S1x128 ![1] bcast_S128_S1x128_1 b

def layer (h : (⟨S50000x128, .f32⟩ : BufTy).Contents (Elt F)) (w : (⟨S128x128, .f32⟩ : BufTy).Contents (Elt F)) (b : (⟨S128, .f32⟩ : BufTy).Contents (Elt F)) (src dst : (⟨S650000, .i32⟩ : BufTy).Contents (Elt F)) (norm : (⟨S650000x1, .f32⟩ : BufTy).Contents (Elt F)) : (⟨S50000x128, .f32⟩ : BufTy).Contents (Elt F) :=
  act (aggOf (dense h w) src dst norm) (asRow b)

def poolOf (h : (⟨S50000x128, .f32⟩ : BufTy).Contents (Elt F)) (a2 : (⟨S50000, .i32⟩ : BufTy).Contents (Elt F)) : (⟨S512x128, .f32⟩ : BufTy).Contents (Elt F) :=
  Host.scatterAdd scatter_S512x128_S50000x1_S50000x128_1_0_0_1 (broadcastInDim S512x128 ![] bcast_S_S512x128 (constant S_ .f32 0x00000000#32)) (broadcastInDim S50000x1 ![0] bcast_S50000_S50000x1_0 a2) h

def catOf (p1 p2 p3 p4 p5 : (⟨S512x128, .f32⟩ : BufTy).Contents (Elt F)) : (⟨S512x640, .f32⟩ : BufTy).Contents (Elt F) :=
  concatenate S512x640 1 [⟨S512x128, p1⟩, ⟨S512x128, p2⟩, ⟨S512x128, p3⟩, ⟨S512x128, p4⟩, ⟨S512x128, p5⟩] concatenates_S512x128_S512x128_S512x128_S512x128_S512x128_S512x640_d1

def wOf0 (a3 : (⟨S5x128x128, .f32⟩ : BufTy).Contents (Elt F)) : (⟨S128x128, .f32⟩ : BufTy).Contents (Elt F) :=
  shapeCast _ (extractStridedSlice S1x128x128 ![0, 0, 0] a3 slices_S5x128x128_S1x128x128_0_0_0) shapeCasts_S1x128x128_S128x128

def bOf0 (a4 : (⟨S5x128, .f32⟩ : BufTy).Contents (Elt F)) : (⟨S128, .f32⟩ : BufTy).Contents (Elt F) :=
  shapeCast _ (extractStridedSlice S1x128 ![0, 0] a4 slices_S5x128_S1x128_0_0) shapeCasts_S1x128_S128

def wOf1 (a3 : (⟨S5x128x128, .f32⟩ : BufTy).Contents (Elt F)) : (⟨S128x128, .f32⟩ : BufTy).Contents (Elt F) :=
  shapeCast _ (extractStridedSlice S1x128x128 ![1, 0, 0] a3 slices_S5x128x128_S1x128x128_1_0_0) shapeCasts_S1x128x128_S128x128

def bOf1 (a4 : (⟨S5x128, .f32⟩ : BufTy).Contents (Elt F)) : (⟨S128, .f32⟩ : BufTy).Contents (Elt F) :=
  shapeCast _ (extractStridedSlice S1x128 ![1, 0] a4 slices_S5x128_S1x128_1_0) shapeCasts_S1x128_S128

def wOf2 (a3 : (⟨S5x128x128, .f32⟩ : BufTy).Contents (Elt F)) : (⟨S128x128, .f32⟩ : BufTy).Contents (Elt F) :=
  shapeCast _ (extractStridedSlice S1x128x128 ![2, 0, 0] a3 slices_S5x128x128_S1x128x128_2_0_0) shapeCasts_S1x128x128_S128x128

def bOf2 (a4 : (⟨S5x128, .f32⟩ : BufTy).Contents (Elt F)) : (⟨S128, .f32⟩ : BufTy).Contents (Elt F) :=
  shapeCast _ (extractStridedSlice S1x128 ![2, 0] a4 slices_S5x128_S1x128_2_0) shapeCasts_S1x128_S128

def wOf3 (a3 : (⟨S5x128x128, .f32⟩ : BufTy).Contents (Elt F)) : (⟨S128x128, .f32⟩ : BufTy).Contents (Elt F) :=
  shapeCast _ (extractStridedSlice S1x128x128 ![3, 0, 0] a3 slices_S5x128x128_S1x128x128_3_0_0) shapeCasts_S1x128x128_S128x128

def bOf3 (a4 : (⟨S5x128, .f32⟩ : BufTy).Contents (Elt F)) : (⟨S128, .f32⟩ : BufTy).Contents (Elt F) :=
  shapeCast _ (extractStridedSlice S1x128 ![3, 0] a4 slices_S5x128_S1x128_3_0) shapeCasts_S1x128_S128

def wOf4 (a3 : (⟨S5x128x128, .f32⟩ : BufTy).Contents (Elt F)) : (⟨S128x128, .f32⟩ : BufTy).Contents (Elt F) :=
  shapeCast _ (extractStridedSlice S1x128x128 ![4, 0, 0] a3 slices_S5x128x128_S1x128x128_4_0_0) shapeCasts_S1x128x128_S128x128

def bOf4 (a4 : (⟨S5x128, .f32⟩ : BufTy).Contents (Elt F)) : (⟨S128, .f32⟩ : BufTy).Contents (Elt F) :=
  shapeCast _ (extractStridedSlice S1x128 ![4, 0] a4 slices_S5x128_S1x128_4_0) shapeCasts_S1x128_S128

def h1 (n : (⟨S650000x1, .f32⟩ : BufTy).Contents (Elt F)) (a0 : (⟨S50000x128, .f32⟩ : BufTy).Contents (Elt F)) (a1 : (⟨S2x600000, .i32⟩ : BufTy).Contents (Elt F)) (a3 : (⟨S5x128x128, .f32⟩ : BufTy).Contents (Elt F)) (a4 : (⟨S5x128, .f32⟩ : BufTy).Contents (Elt F)) : (⟨S50000x128, .f32⟩ : BufTy).Contents (Elt F) :=
  layer a0 (wOf0 a3) (bOf0 a4) (srcOf a1) (dstOf a1) n

def h2 (n : (⟨S650000x1, .f32⟩ : BufTy).Contents (Elt F)) (a0 : (⟨S50000x128, .f32⟩ : BufTy).Contents (Elt F)) (a1 : (⟨S2x600000, .i32⟩ : BufTy).Contents (Elt F)) (a3 : (⟨S5x128x128, .f32⟩ : BufTy).Contents (Elt F)) (a4 : (⟨S5x128, .f32⟩ : BufTy).Contents (Elt F)) : (⟨S50000x128, .f32⟩ : BufTy).Contents (Elt F) :=
  layer (h1 n a0 a1 a3 a4) (wOf1 a3) (bOf1 a4) (srcOf a1) (dstOf a1) n

def h3 (n : (⟨S650000x1, .f32⟩ : BufTy).Contents (Elt F)) (a0 : (⟨S50000x128, .f32⟩ : BufTy).Contents (Elt F)) (a1 : (⟨S2x600000, .i32⟩ : BufTy).Contents (Elt F)) (a3 : (⟨S5x128x128, .f32⟩ : BufTy).Contents (Elt F)) (a4 : (⟨S5x128, .f32⟩ : BufTy).Contents (Elt F)) : (⟨S50000x128, .f32⟩ : BufTy).Contents (Elt F) :=
  layer (h2 n a0 a1 a3 a4) (wOf2 a3) (bOf2 a4) (srcOf a1) (dstOf a1) n

def h4 (n : (⟨S650000x1, .f32⟩ : BufTy).Contents (Elt F)) (a0 : (⟨S50000x128, .f32⟩ : BufTy).Contents (Elt F)) (a1 : (⟨S2x600000, .i32⟩ : BufTy).Contents (Elt F)) (a3 : (⟨S5x128x128, .f32⟩ : BufTy).Contents (Elt F)) (a4 : (⟨S5x128, .f32⟩ : BufTy).Contents (Elt F)) : (⟨S50000x128, .f32⟩ : BufTy).Contents (Elt F) :=
  layer (h3 n a0 a1 a3 a4) (wOf3 a3) (bOf3 a4) (srcOf a1) (dstOf a1) n

def h5 (n : (⟨S650000x1, .f32⟩ : BufTy).Contents (Elt F)) (a0 : (⟨S50000x128, .f32⟩ : BufTy).Contents (Elt F)) (a1 : (⟨S2x600000, .i32⟩ : BufTy).Contents (Elt F)) (a3 : (⟨S5x128x128, .f32⟩ : BufTy).Contents (Elt F)) (a4 : (⟨S5x128, .f32⟩ : BufTy).Contents (Elt F)) : (⟨S50000x128, .f32⟩ : BufTy).Contents (Elt F) :=
  layer (h4 n a0 a1 a3 a4) (wOf4 a3) (bOf4 a4) (srcOf a1) (dstOf a1) n

def Z (n : (⟨S650000x1, .f32⟩ : BufTy).Contents (Elt F)) (a0 : (⟨S50000x128, .f32⟩ : BufTy).Contents (Elt F)) (a1 : (⟨S2x600000, .i32⟩ : BufTy).Contents (Elt F)) (a2 : (⟨S50000, .i32⟩ : BufTy).Contents (Elt F)) (a3 : (⟨S5x128x128, .f32⟩ : BufTy).Contents (Elt F)) (a4 : (⟨S5x128, .f32⟩ : BufTy).Contents (Elt F)) : (⟨S512x640, .f32⟩ : BufTy).Contents (Elt F) :=
  catOf (poolOf (h1 n a0 a1 a3 a4) a2) (poolOf (h2 n a0 a1 a3 a4) a2) (poolOf (h3 n a0 a1 a3 a4) a2) (poolOf (h4 n a0 a1 a3 a4) a2) (poolOf (h5 n a0 a1 a3 a4) a2)

end Cert.Spec

end
-- ==== Proof.KI.Stages.lean ====
import proofs.«160719_j29892972380736_1_alg».proof.Proof.Gen.KernelIdeal.Launch
import proofs.«160719_j29892972380736_1_alg».proof.Proof.Spec
import proofs.«160719_j29892972380736_1_alg».proof.Proof.Gen.KernelIdeal
import proofs.«160719_j29892972380736_1_alg».proof.Proof.Gen.ReferenceIdeal
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem

variable (W : Valuation Cert.KernelIdeal.τ Cert.KernelIdeal.sig (Elt Ideal))

theorem row_eq {α : Type} (x : (⟨1, ![128]⟩ : Shape).Idx → α)
    (h : (⟨1, ![128]⟩ : Shape).ShapeCasts ⟨2, ![1, 128]⟩)
    (h' : (⟨1, ![128]⟩ : Shape).BroadcastsInDim ⟨2, ![1, 128]⟩ (![1] : Fin 1 → Fin 2)) :
    shapeCast ⟨2, ![1, 128]⟩ x h = broadcastInDim ⟨2, ![1, 128]⟩ ![1] h' x := by
  funext j
  obtain ⟨u, i, rfl⟩ : ∃ (u : Fin 1) (i : Fin 128), j = ix2 u i := ⟨j 0, j 1, eq_ix2 j⟩
  rw [shapeCast_a_1a_apply x h u i]
  exact (broadcastInDim_apply ![1] h' x (ix2 u i) (ix1 i) (fun a => by match a with | ⟨0, _⟩ => rfl)).symm

theorem nary5_result {τ : Topo} {sig : RefSig} {Val : EltTy → Type} {x a b c e y : Ref sig .tc}
    (f : ((k : Fin 5) → ((![x, a, b, c, e] : Fin 5 → Ref sig .tc) k).ty.Contents Val) → y.ty.Contents Val) (hxs hy)
    (V : Valuation τ sig Val) :
    (StableHlo.nary (τ := τ) ![x, a, b, c, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [StableHlo.nary_result]; congr 1; funext k; fin_cases k <;> rfl

theorem nary5_result' {τ : Topo} {sig : RefSig} {Val : EltTy → Type} {x a b c e y : Ref sig .tc}
    (f : ((k : Fin 5) → ((![x, a, b, c, e] : Fin 5 → Ref sig .tc) k).ty.Contents Val) → y.ty.Contents Val) (hxs hy)
    (V : Valuation τ sig Val) :
    (StableHlo.nary (τ := τ) ![x, a, b, c, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) :=
  nary5_result f hxs hy V

theorem s0_src :
    @Eq ((⟨Cert.ReferenceIdeal.S650000, .i32⟩ : BufTy).Contents (Elt Ideal)) (StableHlo.after hostOps0 W main_v3) (Cert.Spec.srcOf (W main_arg1)) := by
  show StableHlo.after hostOps0 W (Proc.devRef .tc main_v3) = _
  after_results
  rfl

theorem s0_dst :
    @Eq ((⟨Cert.ReferenceIdeal.S650000, .i32⟩ : BufTy).Contents (Elt Ideal)) (StableHlo.after hostOps0 W main_v6) (Cert.Spec.dstOf (W main_arg1)) := by
  show StableHlo.after hostOps0 W (Proc.devRef .tc main_v6) = _
  after_results
  rfl

theorem s0_norm :
    @Eq ((⟨Cert.ReferenceIdeal.S650000x1, .f32⟩ : BufTy).Contents (Elt Ideal)) (StableHlo.after hostOps0 W main_v27) (Cert.Spec.nrm (fun s => s) (W main_arg1)) := by
  show StableHlo.after hostOps0 W (Proc.devRef .tc main_v27) = _
  after_results_simp
  rfl

theorem s0_wbf :
    @Eq ((⟨Cert.ReferenceIdeal.S5x128x128, .bf16⟩ : BufTy).Contents (Elt Ideal)) (StableHlo.after hostOps0 W main_v28) (truncf (F := Ideal) .bf16 (W main_arg3) bitsLt_bf16_f32) := by
  show StableHlo.after hostOps0 W (Proc.devRef .tc main_v28) = _
  after_results

theorem s0_w :
    @Eq ((⟨Cert.ReferenceIdeal.S128x128, .f32⟩ : BufTy).Contents (Elt Ideal)) (StableHlo.after hostOps0 W main_v30) (Cert.Spec.wOf0 (W main_arg3)) := by
  show StableHlo.after hostOps0 W (Proc.devRef .tc main_v30) = _
  after_results
  rfl

theorem s1_agg :
    @Eq ((⟨Cert.ReferenceIdeal.S50000x128, .f32⟩ : BufTy).Contents (Elt Ideal)) (StableHlo.after hostOps1 W main_v43) (Cert.Spec.aggOf (W main_v31) (W main_v3) (W main_v6) (W main_v27)) := by
  show StableHlo.after hostOps1 W (Proc.devRef .tc main_v43) = _
  after_results_simp
  rfl

theorem s1_row :
    @Eq ((⟨Cert.ReferenceIdeal.S1x128, .f32⟩ : BufTy).Contents (Elt Ideal)) (StableHlo.after hostOps1 W main_v46) (Cert.Spec.asRow (Cert.Spec.bOf0 (W main_arg4))) := by
  show StableHlo.after hostOps1 W (Proc.devRef .tc main_v46) = _
  after_results
  exact row_eq _ _ _

theorem s2_w :
    @Eq ((⟨Cert.ReferenceIdeal.S128x128, .f32⟩ : BufTy).Contents (Elt Ideal)) (StableHlo.after hostOps2 W main_v49) (Cert.Spec.wOf1 (W main_v28)) := by
  show StableHlo.after hostOps2 W (Proc.devRef .tc main_v49) = _
  after_results
  rfl

theorem s3_agg :
    @Eq ((⟨Cert.ReferenceIdeal.S50000x128, .f32⟩ : BufTy).Contents (Elt Ideal)) (StableHlo.after hostOps3 W main_v62) (Cert.Spec.aggOf (W main_v50) (W main_v3) (W main_v6) (W main_v27)) := by
  show StableHlo.after hostOps3 W (Proc.devRef .tc main_v62) = _
  after_results_simp
  rfl

theorem s3_row :
    @Eq ((⟨Cert.ReferenceIdeal.S1x128, .f32⟩ : BufTy).Contents (Elt Ideal)) (StableHlo.after hostOps3 W main_v65) (Cert.Spec.asRow (Cert.Spec.bOf1 (W main_arg4))) := by
  show StableHlo.after hostOps3 W (Proc.devRef .tc main_v65) = _
  after_results
  exact row_eq _ _ _

theorem s4_w :
    @Eq ((⟨Cert.ReferenceIdeal.S128x128, .f32⟩ : BufTy).Contents (Elt Ideal)) (StableHlo.after hostOps4 W main_v68) (Cert.Spec.wOf2 (W main_v28)) := by
  show StableHlo.after hostOps4 W (Proc.devRef .tc main_v68) = _
  after_results
  rfl

theorem s5_agg :
    @Eq ((⟨Cert.ReferenceIdeal.S50000x128, .f32⟩ : BufTy).Contents (Elt Ideal)) (StableHlo.after hostOps5 W main_v81) (Cert.Spec.aggOf (W main_v69) (W main_v3) (W main_v6) (W main_v27)) := by
  show StableHlo.after hostOps5 W (Proc.devRef .tc main_v81) = _
  after_results_simp
  rfl

theorem s5_row :
    @Eq ((⟨Cert.ReferenceIdeal.S1x128, .f32⟩ : BufTy).Contents (Elt Ideal)) (StableHlo.after hostOps5 W main_v84) (Cert.Spec.asRow (Cert.Spec.bOf2 (W main_arg4))) := by
  show StableHlo.after hostOps5 W (Proc.devRef .tc main_v84) = _
  after_results
  exact row_eq _ _ _

theorem s6_w :
    @Eq ((⟨Cert.ReferenceIdeal.S128x128, .f32⟩ : BufTy).Contents (Elt Ideal)) (StableHlo.after hostOps6 W main_v87) (Cert.Spec.wOf3 (W main_v28)) := by
  show StableHlo.after hostOps6 W (Proc.devRef .tc main_v87) = _
  after_results
  rfl

theorem s7_agg :
    @Eq ((⟨Cert.ReferenceIdeal.S50000x128, .f32⟩ : BufTy).Contents (Elt Ideal)) (StableHlo.after hostOps7 W main_v100) (Cert.Spec.aggOf (W main_v88) (W main_v3) (W main_v6) (W main_v27)) := by
  show StableHlo.after hostOps7 W (Proc.devRef .tc main_v100) = _
  after_results_simp
  rfl

theorem s7_row :
    @Eq ((⟨Cert.ReferenceIdeal.S1x128, .f32⟩ : BufTy).Contents (Elt Ideal)) (StableHlo.after hostOps7 W main_v103) (Cert.Spec.asRow (Cert.Spec.bOf3 (W main_arg4))) := by
  show StableHlo.after hostOps7 W (Proc.devRef .tc main_v103) = _
  after_results
  exact row_eq _ _ _

theorem s8_w :
    @Eq ((⟨Cert.ReferenceIdeal.S128x128, .f32⟩ : BufTy).Contents (Elt Ideal)) (StableHlo.after hostOps8 W main_v106) (Cert.Spec.wOf4 (W main_v28)) := by
  show StableHlo.after hostOps8 W (Proc.devRef .tc main_v106) = _
  after_results
  rfl

theorem s9_agg :
    @Eq ((⟨Cert.ReferenceIdeal.S50000x128, .f32⟩ : BufTy).Contents (Elt Ideal)) (StableHlo.after hostOps9 W main_v119) (Cert.Spec.aggOf (W main_v107) (W main_v3) (W main_v6) (W main_v27)) := by
  show StableHlo.after hostOps9 W (Proc.devRef .tc main_v119) = _
  after_results_simp
  rfl

theorem s9_row :
    @Eq ((⟨Cert.ReferenceIdeal.S1x128, .f32⟩ : BufTy).Contents (Elt Ideal)) (StableHlo.after hostOps9 W main_v122) (Cert.Spec.asRow (Cert.Spec.bOf4 (W main_arg4))) := by
  show StableHlo.after hostOps9 W (Proc.devRef .tc main_v122) = _
  after_results
  exact row_eq _ _ _

theorem s10_out :
    @Eq ((⟨Cert.ReferenceIdeal.S512x640, .f32⟩ : BufTy).Contents (Elt Ideal)) (StableHlo.after hostOps10 W main_v139) (Cert.Spec.catOf (Cert.Spec.poolOf (W main_v47) (W main_arg2)) (Cert.Spec.poolOf (W main_v66) (W main_arg2)) (Cert.Spec.poolOf (W main_v85) (W main_arg2)) (Cert.Spec.poolOf (W main_v104) (W main_arg2)) (Cert.Spec.poolOf (W main_v123) (W main_arg2))) := by
  show StableHlo.after hostOps10 W (Proc.devRef .tc main_v139) = _
  simp (disch := decide) only [StableHlo.after_cons, StableHlo.after_nil, nary5_result',
    StableHlo.nullary_result', StableHlo.unary_result', StableHlo.ternary_result',
    StableHlo.nullary_result_ne', StableHlo.unary_result_ne', StableHlo.ternary_result_ne', StableHlo.nary_result_ne']
  rfl

end Cert.KernelIdeal.Stages
end
-- ==== Proof.KI.Chain.lean ====
import proofs.«160719_j29892972380736_1_alg».proof.Proof.KI.Outs
import proofs.«160719_j29892972380736_1_alg».proof.Proof.KI.Stages
import proofs.«160719_j29892972380736_1_alg».proof.Proof.Gen.KernelIdeal.Regions
import proofs.«160719_j29892972380736_1_alg».proof.Proof.Spec

set_option maxRecDepth 16384

noncomputable section

namespace Cert.KernelIdeal.Chain
open Cert.KernelIdeal Cert.KernelIdeal.Gen
open Idealize.ShloMosaic Idealize.ShloMosaic.TcCoe Idealize.SL.Sem

variable (m : (ℓ : Loc nD τ sig) → Buf (Elt Ideal) ℓ) (c : Dev nD)

local notation "𝕠" => Rgn.outs m

theorem keep_v3_2 : V2 m 𝕠 c main_v3 = V1 m c main_v3 :=
  (V2_of m 𝕠 c main_v3 (by decide))
theorem keep_v3_6 : V6 m 𝕠 c main_v3 = V1 m c main_v3 :=
  (V6_of m 𝕠 c main_v3 (by decide)).trans <| (V5_of m 𝕠 c main_v3 (by decide)).trans <| (V4_of m 𝕠 c main_v3 (by decide)).trans <| (V3_of m 𝕠 c main_v3 (by decide)).trans <| keep_v3_2 m c
theorem keep_v3_10 : V10 m 𝕠 c main_v3 = V1 m c main_v3 :=
  (V10_of m 𝕠 c main_v3 (by decide)).trans <| (V9_of m 𝕠 c main_v3 (by decide)).trans <| (V8_of m 𝕠 c main_v3 (by decide)).trans <| (V7_of m 𝕠 c main_v3 (by decide)).trans <| keep_v3_6 m c
theorem keep_v3_14 : V14 m 𝕠 c main_v3 = V1 m c main_v3 :=
  (V14_of m 𝕠 c main_v3 (by decide)).trans <| (V13_of m 𝕠 c main_v3 (by decide)).trans <| (V12_of m 𝕠 c main_v3 (by decide)).trans <| (V11_of m 𝕠 c main_v3 (by decide)).trans <| keep_v3_10 m c
theorem keep_v3_18 : V18 m 𝕠 c main_v3 = V1 m c main_v3 :=
  (V18_of m 𝕠 c main_v3 (by decide)).trans <| (V17_of m 𝕠 c main_v3 (by decide)).trans <| (V16_of m 𝕠 c main_v3 (by decide)).trans <| (V15_of m 𝕠 c main_v3 (by decide)).trans <| keep_v3_14 m c
theorem keep_v6_2 : V2 m 𝕠 c main_v6 = V1 m c main_v6 :=
  (V2_of m 𝕠 c main_v6 (by decide))
theorem keep_v6_6 : V6 m 𝕠 c main_v6 = V1 m c main_v6 :=
  (V6_of m 𝕠 c main_v6 (by decide)).trans <| (V5_of m 𝕠 c main_v6 (by decide)).trans <| (V4_of m 𝕠 c main_v6 (by decide)).trans <| (V3_of m 𝕠 c main_v6 (by decide)).trans <| keep_v6_2 m c
theorem keep_v6_10 : V10 m 𝕠 c main_v6 = V1 m c main_v6 :=
  (V10_of m 𝕠 c main_v6 (by decide)).trans <| (V9_of m 𝕠 c main_v6 (by decide)).trans <| (V8_of m 𝕠 c main_v6 (by decide)).trans <| (V7_of m 𝕠 c main_v6 (by decide)).trans <| keep_v6_6 m c
theorem keep_v6_14 : V14 m 𝕠 c main_v6 = V1 m c main_v6 :=
  (V14_of m 𝕠 c main_v6 (by decide)).trans <| (V13_of m 𝕠 c main_v6 (by decide)).trans <| (V12_of m 𝕠 c main_v6 (by decide)).trans <| (V11_of m 𝕠 c main_v6 (by decide)).trans <| keep_v6_10 m c
theorem keep_v6_18 : V18 m 𝕠 c main_v6 = V1 m c main_v6 :=
  (V18_of m 𝕠 c main_v6 (by decide)).trans <| (V17_of m 𝕠 c main_v6 (by decide)).trans <| (V16_of m 𝕠 c main_v6 (by decide)).trans <| (V15_of m 𝕠 c main_v6 (by decide)).trans <| keep_v6_14 m c
theorem keep_v27_2 : V2 m 𝕠 c main_v27 = V1 m c main_v27 :=
  (V2_of m 𝕠 c main_v27 (by decide))
theorem keep_v27_6 : V6 m 𝕠 c main_v27 = V1 m c main_v27 :=
  (V6_of m 𝕠 c main_v27 (by decide)).trans <| (V5_of m 𝕠 c main_v27 (by decide)).trans <| (V4_of m 𝕠 c main_v27 (by decide)).trans <| (V3_of m 𝕠 c main_v27 (by decide)).trans <| keep_v27_2 m c
theorem keep_v27_10 : V10 m 𝕠 c main_v27 = V1 m c main_v27 :=
  (V10_of m 𝕠 c main_v27 (by decide)).trans <| (V9_of m 𝕠 c main_v27 (by decide)).trans <| (V8_of m 𝕠 c main_v27 (by decide)).trans <| (V7_of m 𝕠 c main_v27 (by decide)).trans <| keep_v27_6 m c
theorem keep_v27_14 : V14 m 𝕠 c main_v27 = V1 m c main_v27 :=
  (V14_of m 𝕠 c main_v27 (by decide)).trans <| (V13_of m 𝕠 c main_v27 (by decide)).trans <| (V12_of m 𝕠 c main_v27 (by decide)).trans <| (V11_of m 𝕠 c main_v27 (by decide)).trans <| keep_v27_10 m c
theorem keep_v27_18 : V18 m 𝕠 c main_v27 = V1 m c main_v27 :=
  (V18_of m 𝕠 c main_v27 (by decide)).trans <| (V17_of m 𝕠 c main_v27 (by decide)).trans <| (V16_of m 𝕠 c main_v27 (by decide)).trans <| (V15_of m 𝕠 c main_v27 (by decide)).trans <| keep_v27_14 m c
theorem keep_v28_4 : V4 m 𝕠 c main_v28 = V1 m c main_v28 :=
  (V4_of m 𝕠 c main_v28 (by decide)).trans <| (V3_of m 𝕠 c main_v28 (by decide)).trans <| (V2_of m 𝕠 c main_v28 (by decide))
theorem keep_v28_8 : V8 m 𝕠 c main_v28 = V1 m c main_v28 :=
  (V8_of m 𝕠 c main_v28 (by decide)).trans <| (V7_of m 𝕠 c main_v28 (by decide)).trans <| (V6_of m 𝕠 c main_v28 (by decide)).trans <| (V5_of m 𝕠 c main_v28 (by decide)).trans <| keep_v28_4 m c
theorem keep_v28_12 : V12 m 𝕠 c main_v28 = V1 m c main_v28 :=
  (V12_of m 𝕠 c main_v28 (by decide)).trans <| (V11_of m 𝕠 c main_v28 (by decide)).trans <| (V10_of m 𝕠 c main_v28 (by decide)).trans <| (V9_of m 𝕠 c main_v28 (by decide)).trans <| keep_v28_8 m c
theorem keep_v28_16 : V16 m 𝕠 c main_v28 = V1 m c main_v28 :=
  (V16_of m 𝕠 c main_v28 (by decide)).trans <| (V15_of m 𝕠 c main_v28 (by decide)).trans <| (V14_of m 𝕠 c main_v28 (by decide)).trans <| (V13_of m 𝕠 c main_v28 (by decide)).trans <| keep_v28_12 m c
theorem keep_arg4_2 : V2 m 𝕠 c main_arg4 = V0 m c main_arg4 :=
  (V2_of m 𝕠 c main_arg4 (by decide)).trans <| (V1_of m c main_arg4 (by decide))
theorem keep_arg4_6 : V6 m 𝕠 c main_arg4 = V0 m c main_arg4 :=
  (V6_of m 𝕠 c main_arg4 (by decide)).trans <| (V5_of m 𝕠 c main_arg4 (by decide)).trans <| (V4_of m 𝕠 c main_arg4 (by decide)).trans <| (V3_of m 𝕠 c main_arg4 (by decide)).trans <| keep_arg4_2 m c
theorem keep_arg4_10 : V10 m 𝕠 c main_arg4 = V0 m c main_arg4 :=
  (V10_of m 𝕠 c main_arg4 (by decide)).trans <| (V9_of m 𝕠 c main_arg4 (by decide)).trans <| (V8_of m 𝕠 c main_arg4 (by decide)).trans <| (V7_of m 𝕠 c main_arg4 (by decide)).trans <| keep_arg4_6 m c
theorem keep_arg4_14 : V14 m 𝕠 c main_arg4 = V0 m c main_arg4 :=
  (V14_of m 𝕠 c main_arg4 (by decide)).trans <| (V13_of m 𝕠 c main_arg4 (by decide)).trans <| (V12_of m 𝕠 c main_arg4 (by decide)).trans <| (V11_of m 𝕠 c main_arg4 (by decide)).trans <| keep_arg4_10 m c
theorem keep_arg4_18 : V18 m 𝕠 c main_arg4 = V0 m c main_arg4 :=
  (V18_of m 𝕠 c main_arg4 (by decide)).trans <| (V17_of m 𝕠 c main_arg4 (by decide)).trans <| (V16_of m 𝕠 c main_arg4 (by decide)).trans <| (V15_of m 𝕠 c main_arg4 (by decide)).trans <| keep_arg4_14 m c
theorem keep_arg0_1 : V1 m c main_arg0 = V0 m c main_arg0 :=
  (V1_of m c main_arg0 (by decide))
theorem keep_v47_5 : V5 m 𝕠 c main_v47 = V4 m 𝕠 c main_v47 :=
  (V5_of m 𝕠 c main_v47 (by decide))
theorem keep_v47_20 : V20 m 𝕠 c main_v47 = V4 m 𝕠 c main_v47 :=
  (V20_of m 𝕠 c main_v47 (by decide)).trans <| (V19_of m 𝕠 c main_v47 (by decide)).trans <| (V18_of m 𝕠 c main_v47 (by decide)).trans <| (V17_of m 𝕠 c main_v47 (by decide)).trans <| (V16_of m 𝕠 c main_v47 (by decide)).trans <| (V15_of m 𝕠 c main_v47 (by decide)).trans <| (V14_of m 𝕠 c main_v47 (by decide)).trans <| (V13_of m 𝕠 c main_v47 (by decide)).trans <| (V12_of m 𝕠 c main_v47 (by decide)).trans <| (V11_of m 𝕠 c main_v47 (by decide)).trans <| (V10_of m 𝕠 c main_v47 (by decide)).trans <| (V9_of m 𝕠 c main_v47 (by decide)).trans <| (V8_of m 𝕠 c main_v47 (by decide)).trans <| (V7_of m 𝕠 c main_v47 (by decide)).trans <| (V6_of m 𝕠 c main_v47 (by decide)).trans <| keep_v47_5 m c
theorem keep_v66_9 : V9 m 𝕠 c main_v66 = V8 m 𝕠 c main_v66 :=
  (V9_of m 𝕠 c main_v66 (by decide))
theorem keep_v66_20 : V20 m 𝕠 c main_v66 = V8 m 𝕠 c main_v66 :=
  (V20_of m 𝕠 c main_v66 (by decide)).trans <| (V19_of m 𝕠 c main_v66 (by decide)).trans <| (V18_of m 𝕠 c main_v66 (by decide)).trans <| (V17_of m 𝕠 c main_v66 (by decide)).trans <| (V16_of m 𝕠 c main_v66 (by decide)).trans <| (V15_of m 𝕠 c main_v66 (by decide)).trans <| (V14_of m 𝕠 c main_v66 (by decide)).trans <| (V13_of m 𝕠 c main_v66 (by decide)).trans <| (V12_of m 𝕠 c main_v66 (by decide)).trans <| (V11_of m 𝕠 c main_v66 (by decide)).trans <| (V10_of m 𝕠 c main_v66 (by decide)).trans <| keep_v66_9 m c
theorem keep_v85_13 : V13 m 𝕠 c main_v85 = V12 m 𝕠 c main_v85 :=
  (V13_of m 𝕠 c main_v85 (by decide))
theorem keep_v85_20 : V20 m 𝕠 c main_v85 = V12 m 𝕠 c main_v85 :=
  (V20_of m 𝕠 c main_v85 (by decide)).trans <| (V19_of m 𝕠 c main_v85 (by decide)).trans <| (V18_of m 𝕠 c main_v85 (by decide)).trans <| (V17_of m 𝕠 c main_v85 (by decide)).trans <| (V16_of m 𝕠 c main_v85 (by decide)).trans <| (V15_of m 𝕠 c main_v85 (by decide)).trans <| (V14_of m 𝕠 c main_v85 (by decide)).trans <| keep_v85_13 m c
theorem keep_v104_17 : V17 m 𝕠 c main_v104 = V16 m 𝕠 c main_v104 :=
  (V17_of m 𝕠 c main_v104 (by decide))
theorem keep_v104_20 : V20 m 𝕠 c main_v104 = V16 m 𝕠 c main_v104 :=
  (V20_of m 𝕠 c main_v104 (by decide)).trans <| (V19_of m 𝕠 c main_v104 (by decide)).trans <| (V18_of m 𝕠 c main_v104 (by decide)).trans <| keep_v104_17 m c

abbrev a0 : (⟨Cert.ReferenceIdeal.S50000x128, .f32⟩ : BufTy).Contents (Elt Ideal) := m ((c.tc : Thread nD τ).loc main_arg0)
abbrev a1 : (⟨Cert.ReferenceIdeal.S2x600000, .i32⟩ : BufTy).Contents (Elt Ideal) := m ((c.tc : Thread nD τ).loc main_arg1)
abbrev a2 : (⟨Cert.ReferenceIdeal.S50000, .i32⟩ : BufTy).Contents (Elt Ideal) := m ((c.tc : Thread nD τ).loc main_arg2)
abbrev a3 : (⟨Cert.ReferenceIdeal.S5x128x128, .f32⟩ : BufTy).Contents (Elt Ideal) := m ((c.tc : Thread nD τ).loc main_arg3)
abbrev a4 : (⟨Cert.ReferenceIdeal.S5x128, .f32⟩ : BufTy).Contents (Elt Ideal) := m ((c.tc : Thread nD τ).loc main_arg4)
abbrev nn : (⟨Cert.ReferenceIdeal.S650000x1, .f32⟩ : BufTy).Contents (Elt Ideal) := Cert.Spec.nrm (fun s => s) (a1 m c)

theorem src1 : V1 m c main_v3 = Cert.Spec.srcOf (a1 m c) := Stages.s0_src (V0 m c)
theorem dst1 : V1 m c main_v6 = Cert.Spec.dstOf (a1 m c) := Stages.s0_dst (V0 m c)
theorem nrm1 : V1 m c main_v27 = nn m c := Stages.s0_norm (V0 m c)
theorem w28_1 : V1 m c main_v28 = a3 m c := Stages.s0_wbf (V0 m c)
theorem w0_1 : V1 m c main_v30 = Cert.Spec.wOf0 (a3 m c) := Stages.s0_w (V0 m c)

structure RegionValues : Prop where
  hd0 : ∀ V c, (Rgn.dat0 (F := Ideal) V c).arrAt 2 cfg0.N = Cert.Spec.dense (V c main_arg0) (V c main_v30)
  ha1 : ∀ V c, (Rgn.dat1 (F := Ideal) V c).arrAt 2 cfg1.N = Cert.Spec.act (V c main_v43) (V c main_v46)
  hd2 : ∀ V c, (Rgn.dat2 (F := Ideal) V c).arrAt 2 cfg2.N = Cert.Spec.dense (V c main_v47) (V c main_v49)
  ha3 : ∀ V c, (Rgn.dat3 (F := Ideal) V c).arrAt 2 cfg3.N = Cert.Spec.act (V c main_v62) (V c main_v65)
  hd4 : ∀ V c, (Rgn.dat4 (F := Ideal) V c).arrAt 2 cfg4.N = Cert.Spec.dense (V c main_v66) (V c main_v68)
  ha5 : ∀ V c, (Rgn.dat5 (F := Ideal) V c).arrAt 2 cfg5.N = Cert.Spec.act (V c main_v81) (V c main_v84)
  hd6 : ∀ V c, (Rgn.dat6 (F := Ideal) V c).arrAt 2 cfg6.N = Cert.Spec.dense (V c main_v85) (V c main_v87)
  ha7 : ∀ V c, (Rgn.dat7 (F := Ideal) V c).arrAt 2 cfg7.N = Cert.Spec.act (V c main_v100) (V c main_v103)
  hd8 : ∀ V c, (Rgn.dat8 (F := Ideal) V c).arrAt 2 cfg8.N = Cert.Spec.dense (V c main_v104) (V c main_v106)
  ha9 : ∀ V c, (Rgn.dat9 (F := Ideal) V c).arrAt 2 cfg9.N = Cert.Spec.act (V c main_v119) (V c main_v122)

variable (H : RegionValues)

include H in

theorem dns0 : V2 m 𝕠 c main_v31 = Cert.Spec.dense (a0 m c) (Cert.Spec.wOf0 (a3 m c)) := by
  refine (Function.update_self _ _ _).trans ((Rgn.outs_at0 m c).trans ((H.hd0 _ c).trans ?_))
  show Cert.Spec.dense (V1 m c main_arg0) (V1 m c main_v30) = _
  rw [keep_arg0_1, w0_1]

include H in

theorem agg0 : V3 m 𝕠 c main_v43 = Cert.Spec.aggOf (Cert.Spec.dense (a0 m c) (Cert.Spec.wOf0 (a3 m c))) (Cert.Spec.srcOf (a1 m c)) (Cert.Spec.dstOf (a1 m c)) (nn m c) := by
  refine (Stages.s1_agg (V2 m 𝕠 c)).trans ?_
  rw [dns0 m c H, keep_v3_2, keep_v6_2, keep_v27_2, src1, dst1, nrm1]

theorem row0 : V3 m 𝕠 c main_v46 = Cert.Spec.asRow (Cert.Spec.bOf0 (a4 m c)) := by
  refine (Stages.s1_row (V2 m 𝕠 c)).trans ?_
  rw [keep_arg4_2]

include H in

theorem feat1 : V4 m 𝕠 c main_v47 = Cert.Spec.h1 (nn m c) (a0 m c) (a1 m c) (a3 m c) (a4 m c) := by
  refine (Function.update_self _ _ _).trans ((Rgn.outs_at1 m c).trans ((H.ha1 _ c).trans ?_))
  show Cert.Spec.act (V3 m 𝕠 c main_v43) (V3 m 𝕠 c main_v46) = _
  rw [agg0 m c H, row0]
  rfl

theorem wgt1 : V5 m 𝕠 c main_v49 = Cert.Spec.wOf1 (a3 m c) := by
  refine (Stages.s2_w (V4 m 𝕠 c)).trans ?_
  rw [keep_v28_4, w28_1]

include H in

theorem dns1 : V6 m 𝕠 c main_v50 = Cert.Spec.dense (Cert.Spec.h1 (nn m c) (a0 m c) (a1 m c) (a3 m c) (a4 m c)) (Cert.Spec.wOf1 (a3 m c)) := by
  refine (Function.update_self _ _ _).trans ((Rgn.outs_at2 m c).trans ((H.hd2 _ c).trans ?_))
  show Cert.Spec.dense (V5 m 𝕠 c main_v47) (V5 m 𝕠 c main_v49) = _
  rw [keep_v47_5, feat1 m c H, wgt1]

include H in

theorem agg1 : V7 m 𝕠 c main_v62 = Cert.Spec.aggOf (Cert.Spec.dense (Cert.Spec.h1 (nn m c) (a0 m c) (a1 m c) (a3 m c) (a4 m c)) (Cert.Spec.wOf1 (a3 m c))) (Cert.Spec.srcOf (a1 m c)) (Cert.Spec.dstOf (a1 m c)) (nn m c) := by
  refine (Stages.s3_agg (V6 m 𝕠 c)).trans ?_
  rw [dns1 m c H, keep_v3_6, keep_v6_6, keep_v27_6, src1, dst1, nrm1]

theorem row1 : V7 m 𝕠 c main_v65 = Cert.Spec.asRow (Cert.Spec.bOf1 (a4 m c)) := by
  refine (Stages.s3_row (V6 m 𝕠 c)).trans ?_
  rw [keep_arg4_6]

include H in

theorem feat2 : V8 m 𝕠 c main_v66 = Cert.Spec.h2 (nn m c) (a0 m c) (a1 m c) (a3 m c) (a4 m c) := by
  refine (Function.update_self _ _ _).trans ((Rgn.outs_at3 m c).trans ((H.ha3 _ c).trans ?_))
  show Cert.Spec.act (V7 m 𝕠 c main_v62) (V7 m 𝕠 c main_v65) = _
  rw [agg1 m c H, row1]
  rfl

theorem wgt2 : V9 m 𝕠 c main_v68 = Cert.Spec.wOf2 (a3 m c) := by
  refine (Stages.s4_w (V8 m 𝕠 c)).trans ?_
  rw [keep_v28_8, w28_1]

include H in

theorem dns2 : V10 m 𝕠 c main_v69 = Cert.Spec.dense (Cert.Spec.h2 (nn m c) (a0 m c) (a1 m c) (a3 m c) (a4 m c)) (Cert.Spec.wOf2 (a3 m c)) := by
  refine (Function.update_self _ _ _).trans ((Rgn.outs_at4 m c).trans ((H.hd4 _ c).trans ?_))
  show Cert.Spec.dense (V9 m 𝕠 c main_v66) (V9 m 𝕠 c main_v68) = _
  rw [keep_v66_9, feat2 m c H, wgt2]

include H in

theorem agg2 : V11 m 𝕠 c main_v81 = Cert.Spec.aggOf (Cert.Spec.dense (Cert.Spec.h2 (nn m c) (a0 m c) (a1 m c) (a3 m c) (a4 m c)) (Cert.Spec.wOf2 (a3 m c))) (Cert.Spec.srcOf (a1 m c)) (Cert.Spec.dstOf (a1 m c)) (nn m c) := by
  refine (Stages.s5_agg (V10 m 𝕠 c)).trans ?_
  rw [dns2 m c H, keep_v3_10, keep_v6_10, keep_v27_10, src1, dst1, nrm1]

theorem row2 : V11 m 𝕠 c main_v84 = Cert.Spec.asRow (Cert.Spec.bOf2 (a4 m c)) := by
  refine (Stages.s5_row (V10 m 𝕠 c)).trans ?_
  rw [keep_arg4_10]

include H in

theorem feat3 : V12 m 𝕠 c main_v85 = Cert.Spec.h3 (nn m c) (a0 m c) (a1 m c) (a3 m c) (a4 m c) := by
  refine (Function.update_self _ _ _).trans ((Rgn.outs_at5 m c).trans ((H.ha5 _ c).trans ?_))
  show Cert.Spec.act (V11 m 𝕠 c main_v81) (V11 m 𝕠 c main_v84) = _
  rw [agg2 m c H, row2]
  rfl

theorem wgt3 : V13 m 𝕠 c main_v87 = Cert.Spec.wOf3 (a3 m c) := by
  refine (Stages.s6_w (V12 m 𝕠 c)).trans ?_
  rw [keep_v28_12, w28_1]

include H in

theorem dns3 : V14 m 𝕠 c main_v88 = Cert.Spec.dense (Cert.Spec.h3 (nn m c) (a0 m c) (a1 m c) (a3 m c) (a4 m c)) (Cert.Spec.wOf3 (a3 m c)) := by
  refine (Function.update_self _ _ _).trans ((Rgn.outs_at6 m c).trans ((H.hd6 _ c).trans ?_))
  show Cert.Spec.dense (V13 m 𝕠 c main_v85) (V13 m 𝕠 c main_v87) = _
  rw [keep_v85_13, feat3 m c H, wgt3]

include H in

theorem agg3 : V15 m 𝕠 c main_v100 = Cert.Spec.aggOf (Cert.Spec.dense (Cert.Spec.h3 (nn m c) (a0 m c) (a1 m c) (a3 m c) (a4 m c)) (Cert.Spec.wOf3 (a3 m c))) (Cert.Spec.srcOf (a1 m c)) (Cert.Spec.dstOf (a1 m c)) (nn m c) := by
  refine (Stages.s7_agg (V14 m 𝕠 c)).trans ?_
  rw [dns3 m c H, keep_v3_14, keep_v6_14, keep_v27_14, src1, dst1, nrm1]

theorem row3 : V15 m 𝕠 c main_v103 = Cert.Spec.asRow (Cert.Spec.bOf3 (a4 m c)) := by
  refine (Stages.s7_row (V14 m 𝕠 c)).trans ?_
  rw [keep_arg4_14]

include H in

theorem feat4 : V16 m 𝕠 c main_v104 = Cert.Spec.h4 (nn m c) (a0 m c) (a1 m c) (a3 m c) (a4 m c) := by
  refine (Function.update_self _ _ _).trans ((Rgn.outs_at7 m c).trans ((H.ha7 _ c).trans ?_))
  show Cert.Spec.act (V15 m 𝕠 c main_v100) (V15 m 𝕠 c main_v103) = _
  rw [agg3 m c H, row3]
  rfl

theorem wgt4 : V17 m 𝕠 c main_v106 = Cert.Spec.wOf4 (a3 m c) := by
  refine (Stages.s8_w (V16 m 𝕠 c)).trans ?_
  rw [keep_v28_16, w28_1]

include H in

theorem dns4 : V18 m 𝕠 c main_v107 = Cert.Spec.dense (Cert.Spec.h4 (nn m c) (a0 m c) (a1 m c) (a3 m c) (a4 m c)) (Cert.Spec.wOf4 (a3 m c)) := by
  refine (Function.update_self _ _ _).trans ((Rgn.outs_at8 m c).trans ((H.hd8 _ c).trans ?_))
  show Cert.Spec.dense (V17 m 𝕠 c main_v104) (V17 m 𝕠 c main_v106) = _
  rw [keep_v104_17, feat4 m c H, wgt4]

include H in

theorem agg4 : V19 m 𝕠 c main_v119 = Cert.Spec.aggOf (Cert.Spec.dense (Cert.Spec.h4 (nn m c) (a0 m c) (a1 m c) (a3 m c) (a4 m c)) (Cert.Spec.wOf4 (a3 m c))) (Cert.Spec.srcOf (a1 m c)) (Cert.Spec.dstOf (a1 m c)) (nn m c) := by
  refine (Stages.s9_agg (V18 m 𝕠 c)).trans ?_
  rw [dns4 m c H, keep_v3_18, keep_v6_18, keep_v27_18, src1, dst1, nrm1]

theorem row4 : V19 m 𝕠 c main_v122 = Cert.Spec.asRow (Cert.Spec.bOf4 (a4 m c)) := by
  refine (Stages.s9_row (V18 m 𝕠 c)).trans ?_
  rw [keep_arg4_18]

include H in

theorem feat5 : V20 m 𝕠 c main_v123 = Cert.Spec.h5 (nn m c) (a0 m c) (a1 m c) (a3 m c) (a4 m c) := by
  refine (Function.update_self _ _ _).trans ((Rgn.outs_at9 m c).trans ((H.ha9 _ c).trans ?_))
  show Cert.Spec.act (V19 m 𝕠 c main_v119) (V19 m 𝕠 c main_v122) = _
  rw [agg4 m c H, row4]
  rfl

theorem arg2_20 : V20 m 𝕠 c main_arg2 = a2 m c :=
  (V21_of m 𝕠 c main_arg2 (by decide)).symm.trans (V21_main_arg2 m 𝕠 c)

include H in
theorem result_of : V21 m 𝕠 c main_v139 = Cert.Spec.Z (nn m c) (a0 m c) (a1 m c) (a2 m c) (a3 m c) (a4 m c) := by
  refine (Stages.s10_out (V20 m 𝕠 c)).trans ?_
  rw [keep_v47_20, keep_v66_20, keep_v85_20, keep_v104_20, arg2_20,
    feat1 m c H, feat2 m c H, feat3 m c H, feat4 m c H, feat5 m c H]
  rfl

omit H in

theorem result_eq
    (hd0 : ∀ V c, (Rgn.dat0 (F := Ideal) V c).arrAt 2 cfg0.N = Cert.Spec.dense (V c main_arg0) (V c main_v30))
    (ha1 : ∀ V c, (Rgn.dat1 (F := Ideal) V c).arrAt 2 cfg1.N = Cert.Spec.act (V c main_v43) (V c main_v46))
    (hd2 : ∀ V c, (Rgn.dat2 (F := Ideal) V c).arrAt 2 cfg2.N = Cert.Spec.dense (V c main_v47) (V c main_v49))
    (ha3 : ∀ V c, (Rgn.dat3 (F := Ideal) V c).arrAt 2 cfg3.N = Cert.Spec.act (V c main_v62) (V c main_v65))
    (hd4 : ∀ V c, (Rgn.dat4 (F := Ideal) V c).arrAt 2 cfg4.N = Cert.Spec.dense (V c main_v66) (V c main_v68))
    (ha5 : ∀ V c, (Rgn.dat5 (F := Ideal) V c).arrAt 2 cfg5.N = Cert.Spec.act (V c main_v81) (V c main_v84))
    (hd6 : ∀ V c, (Rgn.dat6 (F := Ideal) V c).arrAt 2 cfg6.N = Cert.Spec.dense (V c main_v85) (V c main_v87))
    (ha7 : ∀ V c, (Rgn.dat7 (F := Ideal) V c).arrAt 2 cfg7.N = Cert.Spec.act (V c main_v100) (V c main_v103))
    (hd8 : ∀ V c, (Rgn.dat8 (F := Ideal) V c).arrAt 2 cfg8.N = Cert.Spec.dense (V c main_v104) (V c main_v106))
    (ha9 : ∀ V c, (Rgn.dat9 (F := Ideal) V c).arrAt 2 cfg9.N = Cert.Spec.act (V c main_v119) (V c main_v122)) :
    V21 m (Rgn.outs m) c main_v139 = Cert.Spec.Z (Cert.Spec.nrm (fun s => s) (m ((c.tc : Thread nD τ).loc main_arg1))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  result_of m c ⟨hd0, ha1, hd2, ha3, hd4, ha5, hd6, ha7, hd8, ha9⟩

end Cert.KernelIdeal.Chain
end
-- ==== Proof.LibPlainDot.lean ====
import Idealize.ShloMosaic.PureOps.Dims
import Idealize.ShloMosaic.Lib.ValueIdx

namespace PlainDot

open Idealize.ShloMosaic Idealize.ShloMosaic.ValueIdx

variable {R K C : Nat}

private theorem coord_val_congr {s : Shape} (j : s.Idx) (a b : Nat) (ha : a < s.rank) (hb : b < s.rank) (h : a = b) :
    (j ⟨a, ha⟩).val = (j ⟨b, hb⟩).val := by
  subst h; rfl

theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Val.DenseCommon.lean ====
import proofs.«160719_j29892972380736_1_alg».proof.Proof.Spec
import proofs.«160719_j29892972380736_1_alg».proof.Proof.LibPlainDot
import proofs.«160719_j29892972380736_1_alg».proof.Proof.Gen.KernelIdeal.Skeleton
import Idealize.ShloMosaic.Lib.Pipeline.Value
import Idealize.ShloMosaic.PureOps.Ideal.Laws

namespace Cert.KernelIdeal.Val

open Cert.KernelIdeal.Gen Idealize.ShloMosaic Idealize.ShloMosaic.ValueIdx

theorem hz : (![0, 0] : Fin 2 → Nat) = fun _ => 0 := funext fun a => by fin_cases a <;> rfl

/-- The row-block index map sends grid point t to block row t. -/
theorem idx_row : ∀ t : Fin grid0.N, win0_2.index t (0 : Fin 2) = t.val := by decide +kernel

/-- Row r of the 50000 lies in the 5000-row block numbered r / 5000. -/
theorem rows_cover (i : S50000x128.Idx) : ∃ t : Fin grid0.N, i ∈ (win0_2.rect t).set := by
  have h0 : (i 0).val < 50000 := (i 0).isLt
  have h1 : (i 1).val < 128 := (i 1).isLt
  obtain ⟨t, ht⟩ : ∃ t : Fin grid0.N, t.val = (i 0).val / 5000 :=
    ⟨⟨(i 0).val / 5000, by rw [show grid0.N = 10 by decide]; omega⟩, rfl⟩
  have e := idx_row t
  refine ⟨t, Rect.mem_set_unit.2 (Fin.forall_fin_two.2 ⟨?_, ?_⟩)⟩
  · show win0_2.index t 0 * 5000 ≤ (i 0).val ∧ (i 0).val < win0_2.index t 0 * 5000 + 5000
    omega
  · show 0 * 128 ≤ (i 1).val ∧ (i 1).val < 0 * 128 + 128
    omega

/-- The indices a rectangle of a whole array covers are exactly the rectangle's. -/
theorem mem_slice_whole {κ : Kind} (b : Ref sig κ) (r : Rect b.ty.shape) {i : b.ty.shape.Idx} (h : i ∈ r.set) :
    i ∈ ((View.whole b).slice r).set := (View.set_slice_whole b r).symm ▸ h

/-- Entry (p, q) of row block t sits at row 5000 t + p, column q of the array. -/
theorem row_emb (t : Fin grid0.N) (p : Fin 5000) :
    ∃ r : Fin 50000, ∀ q : Fin 128, (win0_2.rect t).emb (ix2 p q) = ix2 r q := by
  have := idx_row t; have := p.isLt; have : t.val < 10 := t.isLt
  exact ⟨⟨win0_2.index t 0 * 5000 + p.val, by omega⟩, fun q => Shape.idx_ext₂
    (by show win0_2.index t 0 * 5000 + 1 * p.val = win0_2.index t 0 * 5000 + p.val; omega)
    (by show 0 * 128 + 1 * q.val = q.val; omega)⟩

/-- The reference's contraction at (p, q) is the sum over k of h (p, k) · w (k, q). -/
theorem dense_apply (h : Cert.ReferenceIdeal.S50000x128.Idx → EReal) (w : Cert.ReferenceIdeal.S128x128.Idx → EReal)
    (p : Fin 50000) (q : Fin 128) :
    Cert.Spec.dense (F := Ideal) h w (ix2 p q) = ∑ k : Fin 128, h (ix2 p k) * w (ix2 k q) := by
  unfold Cert.Spec.dense
  refine (Ideal.dotGeneral_apply (φ₁ := .f32) (φ₂ := .f32)
    Cert.ReferenceIdeal.dot_S50000x128_S128x128_S50000x128_1_0_0_1_n_n none .single h w (ix2 p q)).trans ?_
  exact PlainDot.sum_eq (M := EReal) Cert.ReferenceIdeal.dot_S50000x128_S128x128_S50000x128_1_0_0_1_n_n
    rfl rfl rfl rfl rfl rfl h w p q

/-- The body narrows the features (the identity on extended reals) and contracts them with the weight onto zero. -/
theorem pay2_apply (x0 : Vec Ideal S5000x128 .f32) (x1 : Vec Ideal S128x128 .bf16) (p : Fin 5000) (q : Fin 128) :
    k2_pay1 x0 x1 (ix2 p q) = ∑ k : Fin 128, x0 (ix2 p k) * x1 (ix2 k q) := by
  unfold k2_pay1
  simp only [shapeCast_self]
  refine (Ideal.matmul_constant_zero_apply (φ₁ := .bf16) (φ₂ := .bf16) dot_S5000x128_S128x128_S5000x128_1_0_0_1_n_n none
    (truncf .bf16 x0 bitsLt_bf16_f32) x1 (ix2 p q)).trans ?_
  refine (PlainDot.sum_eq (M := EReal) dot_S5000x128_S128x128_S5000x128_1_0_0_1_n_n rfl rfl rfl rfl rfl rfl
    (truncf (F := Ideal) .bf16 x0 bitsLt_bf16_f32) x1 p q).trans ?_
  rfl

/-- The first region's body is the same up to a reshape to the same shape. -/
theorem pay0_apply (x0 : Vec Ideal S5000x128 .f32) (x1 : Vec Ideal S128x128 .bf16) (p : Fin 5000) (q : Fin 128) :
    k0_pay1 x0 x1 (ix2 p q) = ∑ k : Fin 128, x0 (ix2 p k) * x1 (ix2 k q) := by
  rw [← pay2_apply]; unfold k0_pay1 k2_pay1; simp only [shapeCast_self]

/-- Entry (p, q) of grid point t's output block contracts row 5000 t + p of the features with column q of the weight. -/
theorem dense_flushed {pay : Vec Ideal S5000x128 .f32 → Vec Ideal S128x128 .bf16 → FVec Ideal S5000x128 .f32}
    (hpay : ∀ x0 x1 (p : Fin 5000) (q : Fin 128), pay x0 x1 (ix2 p q) = ∑ k : Fin 128, x0 (ix2 p k) * x1 (ix2 k q))
    (A : S50000x128.Idx → EReal) (W : S128x128.Idx → EReal) (t : Fin grid0.N) {X : Vec Ideal S5000x128 .f32}
    (hX : X = View.canon (Val := Elt Ideal) (e := .f32) [⟨Rect.unit (s := S5000x128) ![0, 0] S5000x128.size inb_S5000x128_S5000x128_0_0,
      pay (View.ld (fun y => A ((win0_2.rect t).emb y)) (Rect.unit (s := S5000x128) ![0, 0] S5000x128.size inb_S5000x128_S5000x128_0_0))
        (View.ld (fun y => W ((win0_1.rect t).emb y)) (Rect.unit (s := S128x128) ![0, 0] S128x128.size inb_S128x128_S128x128_0_0))⟩]) :
    win0_2.cut (grid0.coords t) X = fun j => Cert.Spec.dense (F := Ideal) A W ((win0_2.rect t).emb j) := by
  rw [hX, View.canon_unit_zero hz, View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  obtain ⟨r, e⟩ := row_emb t p
  have e1 : ∀ k : Fin 128, (win0_1.rect t).emb (ix2 k q) = ix2 k q := fun k =>
    Shape.idx_ext₂ (by show 0 * 128 + 1 * k.val = k.val; omega) (by show 0 * 128 + 1 * q.val = q.val; omega)
  show pay _ _ (ix2 p q) = _
  simp only [hpay, e, e1, dense_apply]

end Cert.KernelIdeal.Val
-- ==== Proof.Val.Dense0.lean ====
import proofs.«160719_j29892972380736_1_alg».proof.Proof.Val.DenseCommon
import proofs.«160719_j29892972380736_1_alg».proof.Proof.KI.Region0

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's product. -/
theorem dense0 (c : Dev nD) :
    (dat0 (F := Ideal) V c).arrAt 2 cfg0.N = Cert.Spec.dense (F := Ideal) (V c main_arg0) (V c main_v30) :=
  (dat0 V c).arrAt_eq_of_cover 2 _ (fun t _ => dense_flushed pay0_apply _ _ t (after0_2 V c t))
    fun i => (rows_cover i).imp fun t h => ⟨flush0_2 t, mem_slice_whole _ _ h⟩

end Cert.KernelIdeal.Val
-- ==== Proof.Val.Dense2.lean ====
import proofs.«160719_j29892972380736_1_alg».proof.Proof.Val.DenseCommon
import proofs.«160719_j29892972380736_1_alg».proof.Proof.KI.Region2

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's product. -/
theorem dense2 (c : Dev nD) :
    (dat2 (F := Ideal) V c).arrAt 2 cfg2.N = Cert.Spec.dense (F := Ideal) (V c main_v47) (V c main_v49) :=
  (dat2 V c).arrAt_eq_of_cover 2 _ (fun t _ => dense_flushed pay2_apply _ _ t (after2_2 V c t))
    fun i => (rows_cover i).imp fun t h => ⟨flush2_2 t, mem_slice_whole _ _ h⟩

end Cert.KernelIdeal.Val
-- ==== Proof.Val.Dense4.lean ====
import proofs.«160719_j29892972380736_1_alg».proof.Proof.Val.DenseCommon
import proofs.«160719_j29892972380736_1_alg».proof.Proof.KI.Region4

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's product. -/
theorem dense4 (c : Dev nD) :
    (dat4 (F := Ideal) V c).arrAt 2 cfg4.N = Cert.Spec.dense (F := Ideal) (V c main_v66) (V c main_v68) :=
  (dat4 V c).arrAt_eq_of_cover 2 _ (fun t _ => dense_flushed pay2_apply _ _ t (after4_2 V c t))
    fun i => (rows_cover i).imp fun t h => ⟨flush4_2 t, mem_slice_whole _ _ h⟩

end Cert.KernelIdeal.Val
-- ==== Proof.Val.Dense6.lean ====
import proofs.«160719_j29892972380736_1_alg».proof.Proof.Val.DenseCommon
import proofs.«160719_j29892972380736_1_alg».proof.Proof.KI.Region6

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's product. -/
theorem dense6 (c : Dev nD) :
    (dat6 (F := Ideal) V c).arrAt 2 cfg6.N = Cert.Spec.dense (F := Ideal) (V c main_v85) (V c main_v87) :=
  (dat6 V c).arrAt_eq_of_cover 2 _ (fun t _ => dense_flushed pay2_apply _ _ t (after6_2 V c t))
    fun i => (rows_cover i).imp fun t h => ⟨flush6_2 t, mem_slice_whole _ _ h⟩

end Cert.KernelIdeal.Val
-- ==== Proof.Val.Dense8.lean ====
import proofs.«160719_j29892972380736_1_alg».proof.Proof.Val.DenseCommon
import proofs.«160719_j29892972380736_1_alg».proof.Proof.KI.Region8

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's product. -/
theorem dense8 (c : Dev nD) :
    (dat8 (F := Ideal) V c).arrAt 2 cfg8.N = Cert.Spec.dense (F := Ideal) (V c main_v104) (V c main_v106) :=
  (dat8 V c).arrAt_eq_of_cover 2 _ (fun t _ => dense_flushed pay2_apply _ _ t (after8_2 V c t))
    fun i => (rows_cover i).imp fun t h => ⟨flush8_2 t, mem_slice_whole _ _ h⟩

end Cert.KernelIdeal.Val
-- ==== Proof.Val.ActCommon.lean ====
import proofs.«160719_j29892972380736_1_alg».proof.Proof.Val.DenseCommon
import Idealize.ShloMosaic.Lib.ValueLayout

namespace Cert.KernelIdeal.Val

open Cert.KernelIdeal.Gen Idealize.ShloMosaic Idealize.ShloMosaic.ValueIdx

/-- The reference's add-and-clamp at (r, q): the array's entry plus the row's entry at q, clamped at zero. -/
theorem act_apply (agg : (⟨S50000x128, .f32⟩ : BufTy).Contents (Elt Ideal)) (b : (⟨S1x128, .f32⟩ : BufTy).Contents (Elt Ideal))
    (r : Fin 50000) (q : Fin 128) :
    Cert.Spec.act (F := Ideal) agg b (ix2 r q) = max (agg (ix2 r q) + b (ix2 (0 : Fin 1) q)) (Ideal.ofBits .f32 0x00000000#32) := by
  unfold Cert.Spec.act Cert.Spec.biasRows Cert.Spec.zerosN
  rw [maximumf_apply, addf_apply,
    broadcastInDim_apply _ _ b (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ _ _ (ix2 r q) ix0 (fun a => a.elim0)]
  rfl

/-- The body's payload at (p, q): the block's entry plus the row's entry at q, clamped at zero. -/
theorem payAt (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  simp only [maximumf_apply, addf_apply, shapeCast_self, broadcastTo_1b_ab_apply, broadcast_apply]
  rfl

/-- Entry (p, q) of grid point t's output block is add-and-clamp of row 5000 t + p of the array and of the bias row. -/
theorem act_flushed (A : S50000x128.Idx → EReal) (B : S1x128.Idx → EReal) (t : Fin grid0.N) {X : Vec Ideal S5000x128 .f32}
    (hX : X = View.canon (Val := Elt Ideal) (e := .f32) [⟨Rect.unit (s := S5000x128) ![0, 0] S5000x128.size inb_S5000x128_S5000x128_0_0,
      k1_pay1 (F := Ideal) (View.ld (fun y => A ((win0_2.rect t).emb y)) (Rect.unit (s := S5000x128) ![0, 0] S5000x128.size inb_S5000x128_S5000x128_0_0))
        (View.ld (fun y => B ((win1_1.rect t).emb y)) (Rect.unit (s := S1x128) ![0, 0] S1x128.size inb_S1x128_S1x128_0_0))⟩]) :
    win0_2.cut (grid0.coords t) X = fun j => Cert.Spec.act (F := Ideal) A B ((win0_2.rect t).emb j) := by
  rw [hX, View.canon_unit_zero hz, View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  obtain ⟨r, e⟩ := row_emb t p
  have e1 : (win1_1.rect t).emb (ix2 (0 : Fin 1) q) = ix2 (0 : Fin 1) q :=
    Shape.idx_ext₂ rfl (by show 0 * 128 + 1 * q.val = q.val; omega)
  show k1_pay1 _ _ (ix2 p q) = _
  simp only [payAt, e, e1, act_apply]

end Cert.KernelIdeal.Val
-- ==== Proof.Val.Act1.lean ====
import proofs.«160719_j29892972380736_1_alg».proof.Proof.Val.ActCommon
import proofs.«160719_j29892972380736_1_alg».proof.Proof.KI.Region1

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's add-and-clamp. -/
theorem act1 (c : Dev nD) :
    (dat1 (F := Ideal) V c).arrAt 2 cfg1.N = Cert.Spec.act (F := Ideal) (V c main_v43) (V c main_v46) :=
  (dat1 V c).arrAt_eq_of_cover 2 _ (fun t _ => act_flushed _ _ t (after1_2 V c t))
    fun i => (rows_cover i).imp fun t h => ⟨flush1_2 t, mem_slice_whole _ _ h⟩

end Cert.KernelIdeal.Val
-- ==== Proof.Val.Act3.lean ====
import proofs.«160719_j29892972380736_1_alg».proof.Proof.Val.ActCommon
import proofs.«160719_j29892972380736_1_alg».proof.Proof.KI.Region3

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's add-and-clamp. -/
theorem act3 (c : Dev nD) :
    (dat3 (F := Ideal) V c).arrAt 2 cfg3.N = Cert.Spec.act (F := Ideal) (V c main_v62) (V c main_v65) :=
  (dat3 V c).arrAt_eq_of_cover 2 _ (fun t _ => act_flushed _ _ t (after3_2 V c t))
    fun i => (rows_cover i).imp fun t h => ⟨flush3_2 t, mem_slice_whole _ _ h⟩

end Cert.KernelIdeal.Val
-- ==== Proof.Val.Act5.lean ====
import proofs.«160719_j29892972380736_1_alg».proof.Proof.Val.ActCommon
import proofs.«160719_j29892972380736_1_alg».proof.Proof.KI.Region5

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's add-and-clamp. -/
theorem act5 (c : Dev nD) :
    (dat5 (F := Ideal) V c).arrAt 2 cfg5.N = Cert.Spec.act (F := Ideal) (V c main_v81) (V c main_v84) :=
  (dat5 V c).arrAt_eq_of_cover 2 _ (fun t _ => act_flushed _ _ t (after5_2 V c t))
    fun i => (rows_cover i).imp fun t h => ⟨flush5_2 t, mem_slice_whole _ _ h⟩

end Cert.KernelIdeal.Val
-- ==== Proof.Val.Act7.lean ====
import proofs.«160719_j29892972380736_1_alg».proof.Proof.Val.ActCommon
import proofs.«160719_j29892972380736_1_alg».proof.Proof.KI.Region7

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's add-and-clamp. -/
theorem act7 (c : Dev nD) :
    (dat7 (F := Ideal) V c).arrAt 2 cfg7.N = Cert.Spec.act (F := Ideal) (V c main_v100) (V c main_v103) :=
  (dat7 V c).arrAt_eq_of_cover 2 _ (fun t _ => act_flushed _ _ t (after7_2 V c t))
    fun i => (rows_cover i).imp fun t h => ⟨flush7_2 t, mem_slice_whole _ _ h⟩

end Cert.KernelIdeal.Val
-- ==== Proof.Val.Act9.lean ====
import proofs.«160719_j29892972380736_1_alg».proof.Proof.Val.ActCommon
import proofs.«160719_j29892972380736_1_alg».proof.Proof.KI.Region9

namespace Cert.KernelIdeal.Val

open Gen Rgn Idealize.ShloMosaic TcCoe

variable (V : (c : Dev nD) → (b : Ref sig .tc) → Buf (Elt Ideal) ((c : Thread nD τ).loc b))

/-- The ten row blocks tile the output, and each is written with its block of the reference's add-and-clamp. -/
theorem act9 (c : Dev nD) :
    (dat9 (F := Ideal) V c).arrAt 2 cfg9.N = Cert.Spec.act (F := Ideal) (V c main_v119) (V c main_v122) :=
  (dat9 V c).arrAt_eq_of_cover 2 _ (fun t _ => act_flushed _ _ t (after9_2 V c t))
    fun i => (rows_cover i).imp fun t h => ⟨flush9_2 t, mem_slice_whole _ _ h⟩

end Cert.KernelIdeal.Val
-- ==== Proof.NormBridge.lean ====
import proofs.«160719_j29892972380736_1_alg».proof.Proof.Spec
import proofs.«160719_j29892972380736_1_alg».proof.Defs
import proofs.«160719_j29892972380736_1_alg».proof.Proof.Gen.Pre_finite_inputs
import proofs.«160719_j29892972380736_1_alg».proof.Proof.Gen.KernelIdeal
import proofs.«160719_j29892972380736_1_alg».proof.Proof.Gen.ReferenceIdeal
import Idealize.ShloMosaic.Lib.ReduceAll
import Idealize.ShloMosaic.Lib.ValueIdx
import Idealize.ShloMosaic.Lib.Pipeline.Value
import Idealize.ShloMosaic.Lib.DynamicIndex
import Idealize.ShloMosaic.Lib.IdealHost

noncomputable section

namespace Cert.Bridge

open Idealize.ShloMosaic Idealize.ShloMosaic.ValueIdx Idealize.SL.Sem

theorem targets_read (a1 : IVec (⟨2, ![2, 600000]⟩ : Shape) 32)
    (hS : (⟨2, ![2, 600000]⟩ : Shape).Slices ![1, 0] (⟨2, ![1, 600000]⟩ : Shape))
    (hC : (⟨2, ![1, 600000]⟩ : Shape).ShapeCasts (⟨1, ![600000]⟩ : Shape)) (e : Fin 600000) :
    shapeCast (⟨1, ![600000]⟩ : Shape) (extractStridedSlice (⟨2, ![1, 600000]⟩ : Shape) ![1, 0] a1 hS) hC (ix1 e)
      = a1 (ix2 1 e) := by
  refine (shapeCast_apply _ hC (ix1 e) (ix2 0 e) ?_).trans ?_
  · rw [Shape.rowMajor_val_two, Shape.rowMajor_val_one]
    show (0 : Nat) * _ + e.val = e.val
    omega
  · refine extractStridedSlice_apply ![1, 0] a1 hS (ix2 0 e) (ix2 1 e) ?_
    intro a
    match a with
    | ⟨0, _⟩ => rfl
    | ⟨1, _⟩ => show e.val = 0 + e.val; omega

theorem toInt_ofNat_nonneg {k : Nat} (hk : k < 2 ^ 31) : 0 ≤ (BitVec.ofNat 32 k).toInt := by
  rw [toInt_ofNat_of_lt hk]; omega

instance : Subsingleton (Cert.Pre_finite_inputs.S_).Idx := ⟨fun a b => funext fun d => d.elim0⟩

theorem targets_nonneg [Cert.Pre_finite_inputs.Facts]
    (a0 : FVec Ideal Cert.Pre_finite_inputs.S50000x128 .f32) (a1 : IVec Cert.Pre_finite_inputs.S2x600000 32)
    (a2 : IVec Cert.Pre_finite_inputs.S50000 32) (a3 : FVec Ideal Cert.Pre_finite_inputs.S5x128x128 .f32)
    (a4 : FVec Ideal Cert.Pre_finite_inputs.S5x128 .f32)
    (h : Cert.Pre_finite_inputs.fn (F := Ideal) a0 a1 a2 a3 a4 = fun _ => 1#1) (e : Fin 600000) :
    0 ≤ (a1 (ix2 1 e)).toInt := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix1 e)
  have h3 := IntOp.cmpi_sge.1 h2
  rw [targets_read] at h3
  exact h3

theorem dstOf_nonneg {F : FTy → Type} [FloatOps F] (a1 : (⟨Cert.ReferenceIdeal.S2x600000, .i32⟩ : BufTy).Contents (Elt F))
    (h : ∀ e : Fin 600000, 0 ≤ (a1 (ix2 1 e)).toInt) (j : Cert.ReferenceIdeal.S650000.Idx) :
    0 ≤ (Cert.Spec.dstOf (F := F) a1 j).toInt := by
  unfold Cert.Spec.dstOf
  have hlt : (j 0).val < 650000 := (j 0).isLt
  by_cases hj : (j 0).val < 600000
  · rw [concatenate_pair_apply_left (t := Cert.ReferenceIdeal.S650000) (s₁ := Cert.ReferenceIdeal.S600000)
      (s₂ := Cert.ReferenceIdeal.S50000) (0 : Fin 1) _ _ _ j rfl (ix1 (⟨(j 0).val, hj⟩ : Fin 600000))
      (fun b => by match b with | ⟨0, _⟩ => rfl)]
    rw [targets_read]
    exact h _
  · rw [concatenate_pair_apply_right (t := Cert.ReferenceIdeal.S650000) (s₁ := Cert.ReferenceIdeal.S600000)
      (s₂ := Cert.ReferenceIdeal.S50000) (0 : Fin 1) _ _ _ j rfl rfl
      (ix1 (⟨(j 0).val - 600000, by omega⟩ : Fin 50000))
      (fun b hb => by match b, hb with | ⟨0, _⟩, hb => exact absurd rfl hb)
      (by show (j 0).val - 600000 + 600000 = (j 0).val; omega)]
    rw [iotaInDim_apply]
    exact toInt_ofNat_nonneg (by show (j 0).val - 600000 < 2 ^ 31; omega)

theorem wrapIdx_of_nonneg {F : FTy → Type} [FloatOps F] (s : (⟨Cert.ReferenceIdeal.S650000, .i32⟩ : BufTy).Contents (Elt F))
    (h : ∀ j, 0 ≤ (s j).toInt) : Cert.Spec.wrapIdx (F := F) s = s := by
  funext j
  unfold Cert.Spec.wrapIdx
  exact select_slt_zero_of_nonneg s _ s j (h j)

theorem nrm_eq_of_pre [Cert.Pre_finite_inputs.Facts]
    (a0 : FVec Ideal Cert.Pre_finite_inputs.S50000x128 .f32) (a1 : IVec Cert.Pre_finite_inputs.S2x600000 32)
    (a2 : IVec Cert.Pre_finite_inputs.S50000 32) (a3 : FVec Ideal Cert.Pre_finite_inputs.S5x128x128 .f32)
    (a4 : FVec Ideal Cert.Pre_finite_inputs.S5x128 .f32)
    (h : Cert.Pre_finite_inputs.fn (F := Ideal) a0 a1 a2 a3 a4 = fun _ => 1#1) :
    Cert.Spec.nrm (F := Ideal) Cert.Spec.wrapIdx a1 = Cert.Spec.nrm (F := Ideal) (fun s => s) a1 := by
  unfold Cert.Spec.nrm
  rw [wrapIdx_of_nonneg (Cert.Spec.dstOf (F := Ideal) a1) (dstOf_nonneg a1 (targets_nonneg a0 a1 a2 a3 a4 h))]

theorem nrm_eq [hKI : Cert.KernelIdeal.Facts] [hPre : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
      Cert.Spec.nrm (F := Ideal) Cert.Spec.wrapIdx (m ((c.tc : Thread Cert.KernelIdeal.nD Cert.KernelIdeal.τ).loc Cert.KernelIdeal.main_arg1)) = Cert.Spec.nrm (F := Ideal) (fun s => s) (m ((c.tc : Thread Cert.KernelIdeal.nD Cert.KernelIdeal.τ).loc Cert.KernelIdeal.main_arg1)) :=
  nrm_eq_of_pre _ _ _ _ _ (hpre c)

end Cert.Bridge
end
-- ==== Proof.RefRun.lean ====
import proofs.«160719_j29892972380736_1_alg».proof.Proof.Gen.ReferenceIdeal
import proofs.«160719_j29892972380736_1_alg».proof.Proof.Spec
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

macro "writes_mem" : tactic =>
  `(tactic| (simp only [nullary_writes, unary_writes, binary_writes, ternary_writes, reshape_writes, nary_writes,
      Finset.singleton_subset_iff, List.mem_toFinset]; exact List.mem_map_of_mem (by decide)))

theorem forall_append {α : Type} {p : α → Prop} {l₁ l₂ : List α} (h₁ : l₁.Forall p) (h₂ : l₂.Forall p) : (l₁ ++ l₂).Forall p := by
  rw [List.forall_iff_forall_mem] at h₁ h₂ ⊢
  intro x hx
  rcases List.mem_append.mp hx with h | h
  · exact h₁ x h
  · exact h₂ x h

abbrev opsP : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x00000000#32),
    unary main_cst main_v7 (broadcastInDim S50000 ![] bcast_S_S50000 : (⟨S_, .f32⟩ : BufTy).Contents (Elt F) → (⟨S50000, .f32⟩ : BufTy).Contents (Elt F)),
    nullary main_c (constantI S_ 32 0#32),
    unary main_c main_v8 (broadcastInDim S650000 ![] bcast_S_S650000 : (⟨S_, .i32⟩ : BufTy).Contents (Elt F) → (⟨S650000, .i32⟩ : BufTy).Contents (Elt F)),
    binary main_v6 main_v8 main_v9 (cmpi .slt : (⟨S650000, .i32⟩ : BufTy).Contents (Elt F) → (⟨S650000, .i32⟩ : BufTy).Contents (Elt F) → (⟨S650000, .i1⟩ : BufTy).Contents (Elt F)),
    nullary main_c_0 (constantI S_ 32 50000#32),
    unary main_c_0 main_v10 (broadcastInDim S650000 ![] bcast_S_S650000 : (⟨S_, .i32⟩ : BufTy).Contents (Elt F) → (⟨S650000, .i32⟩ : BufTy).Contents (Elt F)),
    binary main_v6 main_v10 main_v11 (addi : (⟨S650000, .i32⟩ : BufTy).Contents (Elt F) → (⟨S650000, .i32⟩ : BufTy).Contents (Elt F) → (⟨S650000, .i32⟩ : BufTy).Contents (Elt F)),
    ternary main_v9 main_v11 main_v6 main_v12 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v12 main_v13 (broadcastInDim S650000x1 ![0] bcast_S650000_S650000x1_0 : (⟨S650000, .i32⟩ : BufTy).Contents (Elt F) → (⟨S650000x1, .i32⟩ : BufTy).Contents (Elt F)),
    nullary main_cst_1 (constant S_ .f32 0x3F800000#32),
    unary main_cst_1 main_v14 (broadcastInDim S650000 ![] bcast_S_S650000 : (⟨S_, .f32⟩ : BufTy).Contents (Elt F) → (⟨S650000, .f32⟩ : BufTy).Contents (Elt F)),
    ternary main_v7 main_v13 main_v14 main_v15 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_c_2 (constantI S_ 32 0#32),
    unary main_c_2 main_v17 (broadcastInDim S650000 ![] bcast_S_S650000 : (⟨S_, .i32⟩ : BufTy).Contents (Elt F) → (⟨S650000, .i32⟩ : BufTy).Contents (Elt F)),
    binary main_v3 main_v17 main_v18 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v19 (broadcastInDim S650000 ![] bcast_S_S650000 : (⟨S_, .i32⟩ : BufTy).Contents (Elt F) → (⟨S650000, .i32⟩ : BufTy).Contents (Elt F)),
    binary main_v3 main_v19 main_v20 (addi : (⟨S650000, .i32⟩ : BufTy).Contents (Elt F) → (⟨S650000, .i32⟩ : BufTy).Contents (Elt F) → (⟨S650000, .i32⟩ : BufTy).Contents (Elt F)),
    ternary main_v18 main_v20 main_v3 main_v21 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v21 main_v22 (broadcastInDim S650000x1 ![0] bcast_S650000_S650000x1_0 : (⟨S650000, .i32⟩ : BufTy).Contents (Elt F) → (⟨S650000x1, .i32⟩ : BufTy).Contents (Elt F)),
    binary main_v16 main_v22 main_v23 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v24 (broadcastInDim S650000 ![] bcast_S_S650000 : (⟨S_, .i32⟩ : BufTy).Contents (Elt F) → (⟨S650000, .i32⟩ : BufTy).Contents (Elt F)),
    binary main_v6 main_v24 main_v25 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v26 (broadcastInDim S650000 ![] bcast_S_S650000 : (⟨S_, .i32⟩ : BufTy).Contents (Elt F) → (⟨S650000, .i32⟩ : BufTy).Contents (Elt F)),
    binary main_v6 main_v26 main_v27 (addi : (⟨S650000, .i32⟩ : BufTy).Contents (Elt F) → (⟨S650000, .i32⟩ : BufTy).Contents (Elt F) → (⟨S650000, .i32⟩ : BufTy).Contents (Elt F)),
    ternary main_v25 main_v27 main_v6 main_v28 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v28 main_v29 (broadcastInDim S650000x1 ![0] bcast_S650000_S650000x1_0 : (⟨S650000, .i32⟩ : BufTy).Contents (Elt F) → (⟨S650000x1, .i32⟩ : BufTy).Contents (Elt F)),
    binary main_v16 main_v29 main_v30 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v23 main_v30 main_v31 (mulf : (⟨S650000, .f32⟩ : BufTy).Contents (Elt F) → (⟨S650000, .f32⟩ : BufTy).Contents (Elt F) → (⟨S650000, .f32⟩ : BufTy).Contents (Elt F)),
    unary main_v31 main_v32 (broadcastInDim S650000x1 ![0] bcast_S650000_S650000x1_0 : (⟨S650000, .f32⟩ : BufTy).Contents (Elt F) → (⟨S650000x1, .f32⟩ : BufTy).Contents (Elt F)) ]
theorem opsP_sub : (opsP : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
theorem opsP_fresh : (opsP : List (HloOp τ sig (Elt F))).Forall fun op => op.fresh = ∅ := by
  simp only [List.Forall]; repeat' constructor

abbrev opsP_W : List (Ref sig .tc) := [main_v0, main_v1, main_v2, main_v3, main_v4, main_v5, main_v6, main_cst, main_v7, main_c, main_v8, main_v9, main_c_0, main_v10, main_v11, main_v12, main_v13, main_cst_1, main_v14, main_v15, main_v16, main_c_2, main_v17, main_v18, main_c_3, main_v19, main_v20, main_v21, main_v22, main_v23, main_c_4, main_v24, main_v25, main_c_5, main_v26, main_v27, main_v28, main_v29, main_v30, main_v31, main_v32]
theorem opsP_writes : (opsP : List (HloOp τ sig (Elt F))).Forall fun op => op.writes ⊆ (opsP_W.map (Proc.devRef (τ := τ) .tc)).toFinset := by
  simp only [List.Forall]; repeat' apply And.intro
  all_goals writes_mem
theorem opsP_keep (W : Valuation τ sig (Elt F)) {r : Ref sig .tc} (h : r ∉ opsP_W) :
    after opsP W (Proc.devRef .tc r) = W (Proc.devRef .tc r) :=
  after_of_writes_sub opsP W opsP_writes h

abbrev opsL0a : List (HloOp τ sig (Elt F)) :=
  [ unary main_arg3 main_v33 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v33 main_v34 rfl shapeCasts_S1x128x128_S128x128,
    binary main_arg0 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v36 (broadcastInDim S650000 ![] bcast_S_S650000 : (⟨S_, .i32⟩ : BufTy).Contents (Elt F) → (⟨S650000, .i32⟩ : BufTy).Contents (Elt F)),
    binary main_v3 main_v36 main_v37 (cmpi .slt : (⟨S650000, .i32⟩ : BufTy).Contents (Elt F) → (⟨S650000, .i32⟩ : BufTy).Contents (Elt F) → (⟨S650000, .i1⟩ : BufTy).Contents (Elt F)),
    nullary main_c_7 (constantI S_ 32 50000#32),
    unary main_c_7 main_v38 (broadcastInDim S650000 ![] bcast_S_S650000 : (⟨S_, .i32⟩ : BufTy).Contents (Elt F) → (⟨S650000, .i32⟩ : BufTy).Contents (Elt F)),
    binary main_v3 main_v38 main_v39 (addi : (⟨S650000, .i32⟩ : BufTy).Contents (Elt F) → (⟨S650000, .i32⟩ : BufTy).Contents (Elt F) → (⟨S650000, .i32⟩ : BufTy).Contents (Elt F)),
    ternary main_v37 main_v39 main_v3 main_v40 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v40 main_v41 (broadcastInDim S650000x1 ![0] bcast_S650000_S650000x1_0 : (⟨S650000, .i32⟩ : BufTy).Contents (Elt F) → (⟨S650000x1, .i32⟩ : BufTy).Contents (Elt F)),
    binary main_v35 main_v41 main_v42 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v32 main_v43 (broadcastInDim S650000x128 ![0, 1] bcast_S650000x1_S650000x128_0_1 : (⟨S650000x1, .f32⟩ : BufTy).Contents (Elt F) → (⟨S650000x128, .f32⟩ : BufTy).Contents (Elt F)),
    binary main_v42 main_v43 main_v44 (mulf : (⟨S650000x128, .f32⟩ : BufTy).Contents (Elt F) → (⟨S650000x128, .f32⟩ : BufTy).Contents (Elt F) → (⟨S650000x128, .f32⟩ : BufTy).Contents (Elt F)),
    nullary main_cst_8 (constant S_ .f32 0x00000000#32),
    unary main_cst_8 main_v45 (broadcastInDim S50000x128 ![] bcast_S_S50000x128 : (⟨S_, .f32⟩ : BufTy).Contents (Elt F) → (⟨S50000x128, .f32⟩ : BufTy).Contents (Elt F)),
    unary main_v6 main_v46 (broadcastInDim S650000x1 ![0] bcast_S650000_S650000x1_0 : (⟨S650000, .i32⟩ : BufTy).Contents (Elt F) → (⟨S650000x1, .i32⟩ : BufTy).Contents (Elt F)),
    ternary main_v45 main_v46 main_v44 main_v47 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg4 main_v48 ((extractStridedSlice S1x128 ![0, 0] · slices_S5x128_S1x128_0_0) : (⟨S5x128, .f32⟩ : BufTy).Contents (Elt F) → (⟨S1x128, .f32⟩ : BufTy).Contents (Elt F)) ]
theorem opsL0a_sub : (opsL0a : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩
theorem opsL0a_fresh : (opsL0a : List (HloOp τ sig (Elt F))).Forall fun op => op.fresh = ∅ := by
  simp only [List.Forall]; repeat' constructor

abbrev opsL0a_W : List (Ref sig .tc) := [main_v33, main_v34, main_v35, main_c_6, main_v36, main_v37, main_c_7, main_v38, main_v39, main_v40, main_v41, main_v42, main_v43, main_v44, main_cst_8, main_v45, main_v46, main_v47, main_v48]
theorem opsL0a_writes : (opsL0a : List (HloOp τ sig (Elt F))).Forall fun op => op.writes ⊆ (opsL0a_W.map (Proc.devRef (τ := τ) .tc)).toFinset := by
  simp only [List.Forall]; repeat' apply And.intro
  all_goals writes_mem
theorem opsL0a_keep (W : Valuation τ sig (Elt F)) {r : Ref sig .tc} (h : r ∉ opsL0a_W) :
    after opsL0a W (Proc.devRef .tc r) = W (Proc.devRef .tc r) :=
  after_of_writes_sub opsL0a W opsL0a_writes h

abbrev opsL0b : List (HloOp τ sig (Elt F)) :=
  [ reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v47 main_v51 main_v52 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v52) main_call0.v0 main_call0.v1 maximumf ]
theorem opsL0b_sub : (opsL0b : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub ..⟩
theorem opsL0b_fresh : (opsL0b : List (HloOp τ sig (Elt F))).Forall fun op => op.fresh = ∅ := by
  simp only [List.Forall]; repeat' constructor

abbrev opsL0b_W : List (Ref sig .tc) := [main_v49, main_v50, main_v51, main_v52, main_call0_cst, main_call0_v0, main_v53]
theorem opsL0b_writes : (opsL0b : List (HloOp τ sig (Elt F))).Forall fun op => op.writes ⊆ (opsL0b_W.map (Proc.devRef (τ := τ) .tc)).toFinset := by
  simp only [List.Forall]; repeat' apply And.intro
  all_goals writes_mem
theorem opsL0b_keep (W : Valuation τ sig (Elt F)) {r : Ref sig .tc} (h : r ∉ opsL0b_W) :
    after opsL0b W (Proc.devRef .tc r) = W (Proc.devRef .tc r) :=
  after_of_writes_sub opsL0b W opsL0b_writes h

abbrev opsL1 : List (HloOp τ sig (Elt F)) :=
  [ unary main_arg3 main_v54 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v54 main_v55 rfl shapeCasts_S1x128x128_S128x128,
    binary main_v53 main_v55 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v57 (broadcastInDim S650000 ![] bcast_S_S650000 : (⟨S_, .i32⟩ : BufTy).Contents (Elt F) → (⟨S650000, .i32⟩ : BufTy).Contents (Elt F)),
    binary main_v3 main_v57 main_v58 (cmpi .slt : (⟨S650000, .i32⟩ : BufTy).Contents (Elt F) → (⟨S650000, .i32⟩ : BufTy).Contents (Elt F) → (⟨S650000, .i1⟩ : BufTy).Contents (Elt F)),
    nullary main_c_10 (constantI S_ 32 50000#32),
    unary main_c_10 main_v59 (broadcastInDim S650000 ![] bcast_S_S650000 : (⟨S_, .i32⟩ : BufTy).Contents (Elt F) → (⟨S650000, .i32⟩ : BufTy).Contents (Elt F)),
    binary main_v3 main_v59 main_v60 (addi : (⟨S650000, .i32⟩ : BufTy).Contents (Elt F) → (⟨S650000, .i32⟩ : BufTy).Contents (Elt F) → (⟨S650000, .i32⟩ : BufTy).Contents (Elt F)),
    ternary main_v58 main_v60 main_v3 main_v61 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v61 main_v62 (broadcastInDim S650000x1 ![0] bcast_S650000_S650000x1_0 : (⟨S650000, .i32⟩ : BufTy).Contents (Elt F) → (⟨S650000x1, .i32⟩ : BufTy).Contents (Elt F)),
    binary main_v56 main_v62 main_v63 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v32 main_v64 (broadcastInDim S650000x128 ![0, 1] bcast_S650000x1_S650000x128_0_1 : (⟨S650000x1, .f32⟩ : BufTy).Contents (Elt F) → (⟨S650000x128, .f32⟩ : BufTy).Contents (Elt F)),
    binary main_v63 main_v64 main_v65 (mulf : (⟨S650000x128, .f32⟩ : BufTy).Contents (Elt F) → (⟨S650000x128, .f32⟩ : BufTy).Contents (Elt F) → (⟨S650000x128, .f32⟩ : BufTy).Contents (Elt F)),
    nullary main_cst_11 (constant S_ .f32 0x00000000#32),
    unary main_cst_11 main_v66 (broadcastInDim S50000x128 ![] bcast_S_S50000x128 : (⟨S_, .f32⟩ : BufTy).Contents (Elt F) → (⟨S50000x128, .f32⟩ : BufTy).Contents (Elt F)),
    unary main_v6 main_v67 (broadcastInDim S650000x1 ![0] bcast_S650000_S650000x1_0 : (⟨S650000, .i32⟩ : BufTy).Contents (Elt F) → (⟨S650000x1, .i32⟩ : BufTy).Contents (Elt F)),
    ternary main_v66 main_v67 main_v65 main_v68 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg4 main_v69 ((extractStridedSlice S1x128 ![1, 0] · slices_S5x128_S1x128_1_0) : (⟨S5x128, .f32⟩ : BufTy).Contents (Elt F) → (⟨S1x128, .f32⟩ : BufTy).Contents (Elt F)),
    reshape main_v69 main_v70 rfl shapeCasts_S1x128_S128,
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v68 main_v72 main_v73 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v73) main_call1.v0 main_call1.v1 maximumf ]
theorem opsL1_sub : (opsL1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
theorem opsL1_fresh : (opsL1 : List (HloOp τ sig (Elt F))).Forall fun op => op.fresh = ∅ := by
  simp only [List.Forall]; repeat' constructor

abbrev opsL1_W : List (Ref sig .tc) := [main_v54, main_v55, main_v56, main_c_9, main_v57, main_v58, main_c_10, main_v59, main_v60, main_v61, main_v62, main_v63, main_v64, main_v65, main_cst_11, main_v66, main_v67, main_v68, main_v69, main_v70, main_v71, main_v72, main_v73, main_call1_cst, main_call1_v0, main_v74]
theorem opsL1_writes : (opsL1 : List (HloOp τ sig (Elt F))).Forall fun op => op.writes ⊆ (opsL1_W.map (Proc.devRef (τ := τ) .tc)).toFinset := by
  simp only [List.Forall]; repeat' apply And.intro
  all_goals writes_mem
theorem opsL1_keep (W : Valuation τ sig (Elt F)) {r : Ref sig .tc} (h : r ∉ opsL1_W) :
    after opsL1 W (Proc.devRef .tc r) = W (Proc.devRef .tc r) :=
  after_of_writes_sub opsL1 W opsL1_writes h

abbrev opsL2 : List (HloOp τ sig (Elt F)) :=
  [ unary main_arg3 main_v75 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v75 main_v76 rfl shapeCasts_S1x128x128_S128x128,
    binary main_v74 main_v76 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v78 (broadcastInDim S650000 ![] bcast_S_S650000 : (⟨S_, .i32⟩ : BufTy).Contents (Elt F) → (⟨S650000, .i32⟩ : BufTy).Contents (Elt F)),
    binary main_v3 main_v78 main_v79 (cmpi .slt : (⟨S650000, .i32⟩ : BufTy).Contents (Elt F) → (⟨S650000, .i32⟩ : BufTy).Contents (Elt F) → (⟨S650000, .i1⟩ : BufTy).Contents (Elt F)),
    nullary main_c_13 (constantI S_ 32 50000#32),
    unary main_c_13 main_v80 (broadcastInDim S650000 ![] bcast_S_S650000 : (⟨S_, .i32⟩ : BufTy).Contents (Elt F) → (⟨S650000, .i32⟩ : BufTy).Contents (Elt F)),
    binary main_v3 main_v80 main_v81 (addi : (⟨S650000, .i32⟩ : BufTy).Contents (Elt F) → (⟨S650000, .i32⟩ : BufTy).Contents (Elt F) → (⟨S650000, .i32⟩ : BufTy).Contents (Elt F)),
    ternary main_v79 main_v81 main_v3 main_v82 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v82 main_v83 (broadcastInDim S650000x1 ![0] bcast_S650000_S650000x1_0 : (⟨S650000, .i32⟩ : BufTy).Contents (Elt F) → (⟨S650000x1, .i32⟩ : BufTy).Contents (Elt F)),
    binary main_v77 main_v83 main_v84 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v32 main_v85 (broadcastInDim S650000x128 ![0, 1] bcast_S650000x1_S650000x128_0_1 : (⟨S650000x1, .f32⟩ : BufTy).Contents (Elt F) → (⟨S650000x128, .f32⟩ : BufTy).Contents (Elt F)),
    binary main_v84 main_v85 main_v86 (mulf : (⟨S650000x128, .f32⟩ : BufTy).Contents (Elt F) → (⟨S650000x128, .f32⟩ : BufTy).Contents (Elt F) → (⟨S650000x128, .f32⟩ : BufTy).Contents (Elt F)),
    nullary main_cst_14 (constant S_ .f32 0x00000000#32),
    unary main_cst_14 main_v87 (broadcastInDim S50000x128 ![] bcast_S_S50000x128 : (⟨S_, .f32⟩ : BufTy).Contents (Elt F) → (⟨S50000x128, .f32⟩ : BufTy).Contents (Elt F)),
    unary main_v6 main_v88 (broadcastInDim S650000x1 ![0] bcast_S650000_S650000x1_0 : (⟨S650000, .i32⟩ : BufTy).Contents (Elt F) → (⟨S650000x1, .i32⟩ : BufTy).Contents (Elt F)),
    ternary main_v87 main_v88 main_v86 main_v89 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg4 main_v90 ((extractStridedSlice S1x128 ![2, 0] · slices_S5x128_S1x128_2_0) : (⟨S5x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v89 main_v93 main_v94 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v94) main_call2.v0 main_call2.v1 maximumf ]
theorem opsL2_sub : (opsL2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
theorem opsL2_fresh : (opsL2 : List (HloOp τ sig (Elt F))).Forall fun op => op.fresh = ∅ := by
  simp only [List.Forall]; repeat' constructor

abbrev opsL2_W : List (Ref sig .tc) := [main_v75, main_v76, main_v77, main_c_12, main_v78, main_v79, main_c_13, main_v80, main_v81, main_v82, main_v83, main_v84, main_v85, main_v86, main_cst_14, main_v87, main_v88, main_v89, main_v90, main_v91, main_v92, main_v93, main_v94, main_call2_cst, main_call2_v0, main_v95]
theorem opsL2_writes : (opsL2 : List (HloOp τ sig (Elt F))).Forall fun op => op.writes ⊆ (opsL2_W.map (Proc.devRef (τ := τ) .tc)).toFinset := by
  simp only [List.Forall]; repeat' apply And.intro
  all_goals writes_mem
theorem opsL2_keep (W : Valuation τ sig (Elt F)) {r : Ref sig .tc} (h : r ∉ opsL2_W) :
    after opsL2 W (Proc.devRef .tc r) = W (Proc.devRef .tc r) :=
  after_of_writes_sub opsL2 W opsL2_writes h

abbrev opsL3a : List (HloOp τ sig (Elt F)) :=
  [ unary main_arg3 main_v96 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v96 main_v97 rfl shapeCasts_S1x128x128_S128x128,
    binary main_v95 main_v97 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_15 (constantI S_ 32 0#32),
    unary main_c_15 main_v99 (broadcastInDim S650000 ![] bcast_S_S650000 : (⟨S_, .i32⟩ : BufTy).Contents (Elt F) → (⟨S650000, .i32⟩ : BufTy).Contents (Elt F)),
    binary main_v3 main_v99 main_v100 (cmpi .slt : (⟨S650000, .i32⟩ : BufTy).Contents (Elt F) → (⟨S650000, .i32⟩ : BufTy).Contents (Elt F) → (⟨S650000, .i1⟩ : BufTy).Contents (Elt F)),
    nullary main_c_16 (constantI S_ 32 50000#32) ]
theorem opsL3a_sub : (opsL3a : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub ..⟩
theorem opsL3a_fresh : (opsL3a : List (HloOp τ sig (Elt F))).Forall fun op => op.fresh = ∅ := by
  simp only [List.Forall]; repeat' constructor

abbrev opsL3a_W : List (Ref sig .tc) := [main_v96, main_v97, main_v98, main_c_15, main_v99, main_v100, main_c_16]
theorem opsL3a_writes : (opsL3a : List (HloOp τ sig (Elt F))).Forall fun op => op.writes ⊆ (opsL3a_W.map (Proc.devRef (τ := τ) .tc)).toFinset := by
  simp only [List.Forall]; repeat' apply And.intro
  all_goals writes_mem
theorem opsL3a_keep (W : Valuation τ sig (Elt F)) {r : Ref sig .tc} (h : r ∉ opsL3a_W) :
    after opsL3a W (Proc.devRef .tc r) = W (Proc.devRef .tc r) :=
  after_of_writes_sub opsL3a W opsL3a_writes h

abbrev opsL3b : List (HloOp τ sig (Elt F)) :=
  [ unary main_c_16 main_v101 (broadcastInDim S650000 ![] bcast_S_S650000 : (⟨S_, .i32⟩ : BufTy).Contents (Elt F) → (⟨S650000, .i32⟩ : BufTy).Contents (Elt F)),
    binary main_v3 main_v101 main_v102 (addi : (⟨S650000, .i32⟩ : BufTy).Contents (Elt F) → (⟨S650000, .i32⟩ : BufTy).Contents (Elt F) → (⟨S650000, .i32⟩ : BufTy).Contents (Elt F)),
    ternary main_v100 main_v102 main_v3 main_v103 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v103 main_v104 (broadcastInDim S650000x1 ![0] bcast_S650000_S650000x1_0 : (⟨S650000, .i32⟩ : BufTy).Contents (Elt F) → (⟨S650000x1, .i32⟩ : BufTy).Contents (Elt F)),
    binary main_v98 main_v104 main_v105 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v32 main_v106 (broadcastInDim S650000x128 ![0, 1] bcast_S650000x1_S650000x128_0_1 : (⟨S650000x1, .f32⟩ : BufTy).Contents (Elt F) → (⟨S650000x128, .f32⟩ : BufTy).Contents (Elt F)),
    binary main_v105 main_v106 main_v107 (mulf : (⟨S650000x128, .f32⟩ : BufTy).Contents (Elt F) → (⟨S650000x128, .f32⟩ : BufTy).Contents (Elt F) → (⟨S650000x128, .f32⟩ : BufTy).Contents (Elt F)),
    nullary main_cst_17 (constant S_ .f32 0x00000000#32),
    unary main_cst_17 main_v108 (broadcastInDim S50000x128 ![] bcast_S_S50000x128 : (⟨S_, .f32⟩ : BufTy).Contents (Elt F) → (⟨S50000x128, .f32⟩ : BufTy).Contents (Elt F)),
    unary main_v6 main_v109 (broadcastInDim S650000x1 ![0] bcast_S650000_S650000x1_0 : (⟨S650000, .i32⟩ : BufTy).Contents (Elt F) → (⟨S650000x1, .i32⟩ : BufTy).Contents (Elt F)),
    ternary main_v108 main_v109 main_v107 main_v110 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg4 main_v111 ((extractStridedSlice S1x128 ![3, 0] · slices_S5x128_S1x128_3_0) : (⟨S5x128, .f32⟩ : BufTy).Contents (Elt F) → (⟨S1x128, .f32⟩ : BufTy).Contents (Elt F)),
    reshape main_v111 main_v112 rfl shapeCasts_S1x128_S128,
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v110 main_v114 main_v115 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v115) main_call3.v0 main_call3.v1 maximumf ]
theorem opsL3b_sub : (opsL3b : List (HloOp τ sig (Elt F))).Forall fun op => op.bufs ⊆ tcRefs τ sig :=
  ⟨unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
theorem opsL3b_fresh : (opsL3b : List (HloOp τ sig (Elt F))).Forall fun op => op.fresh = ∅ := by
  simp only [List.Forall]; repeat' constructor

abbrev opsL3b_W : List (Ref sig .tc) := [main_v101, main_v102, main_v103, main_v104, main_v105, main_v106, main_v107, main_cst_17, main_v108, main_v109, main_v110, main_v111, main_v112, main_v113, main_v114, main_v115, main_call3_cst, main_call3_v0, main_v116]
theorem opsL3b_writes : (opsL3b : List (HloOp τ sig (Elt F))).Forall fun op => op.writes ⊆ (opsL3b_W.map (Proc.devRef (τ := τ) .tc)).toFinset := by
  simp only [List.Forall]; repeat' apply And.intro
  all_goals writes_mem
theorem opsL3b_keep (W : Valuation τ sig (Elt F)) {r : Ref sig .tc} (h : r ∉ opsL3b_W) :
    after opsL3b W (Proc.devRef .tc r) = W (Proc.devRef .tc r) :=
  after_of_writes_sub opsL3b W opsL3b_writes h

abbrev opsL4 : List (HloOp τ sig (Elt F)) :=
  [ unary main_arg3 main_v117 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v117 main_v118 rfl shapeCasts_S1x128x128_S128x128,
    binary main_v116 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_18 (constantI S_ 32 0#32),
    unary main_c_18 main_v120 (broadcastInDim S650000 ![] bcast_S_S650000 : (⟨S_, .i32⟩ : BufTy).Contents (Elt F) → (⟨S650000, .i32⟩ : BufTy).Contents (Elt F)),
    binary main_v3 main_v120 main_v121 (cmpi .slt : (⟨S650000, .i32⟩ : BufTy).Contents (Elt F) → (⟨S650000, .i32⟩ : BufTy).Contents (Elt F) → (⟨S650000, .i1⟩ : BufTy).Contents (Elt F)),
    nullary main_c_19 (constantI S_ 32 50000#32),
    unary main_c_19 main_v122 (broadcastInDim S650000 ![] bcast_S_S650000 : (⟨S_, .i32⟩ : BufTy).Contents (Elt F) → (⟨S650000, .i32⟩ : BufTy).Contents (Elt F)),
    binary main_v3 main_v122 main_v123 (addi : (⟨S650000, .i32⟩ : BufTy).Contents (Elt F) → (⟨S650000, .i32⟩ : BufTy).Contents (Elt F) → (⟨S650000, .i32⟩ : BufTy).Contents (Elt F)),
    ternary main_v121 main_v123 main_v3 main_v124 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v124 main_v125 (broadcastInDim S650000x1 ![0] bcast_S650000_S650000x1_0 : (⟨S650000, .i32⟩ : BufTy).Contents (Elt F) → (⟨S650000x1, .i32⟩ : BufTy).Contents (Elt F)),
    binary main_v119 main_v125 main_v126 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v32 main_v127 (broadcastInDim S650000x128 ![0, 1] bcast_S650000x1_S650000x128_0_1 : (⟨S650000x1, .f32⟩ : BufTy).Contents (Elt F) → (⟨S650000x128, .f32⟩ : BufTy).Contents (Elt F)),
    binary main_v126 main_v127 main_v128 (mulf : (⟨S650000x128, .f32⟩ : BufTy).Contents (Elt F) → (⟨S650000x128, .f32⟩ : BufTy).Contents (Elt F) → (⟨S650000x128, .f32⟩ : BufTy).Contents (Elt F)),
    nullary main_cst_20 (constant S_ .f32 0x00000000#32),
    unary main_cst_20 main_v129 (broadcastInDim S50000x128 ![] bcast_S_S50000x128 : (⟨S_, .f32⟩ : BufTy).Contents (Elt F) → (⟨S50000x128, .f32⟩ : BufTy).Contents (Elt F)),
    unary main_v6 main_v130 (broadcastInDim S650000x1 ![0] bcast_S650000_S650000x1_0 : (⟨S650000, .i32⟩ : BufTy).Contents (Elt F) → (⟨S650000x1, .i32⟩ : BufTy).Contents (Elt F)),
    ternary main_v129 main_v130 main_v128 main_v131 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg4 main_v132 ((extractStridedSlice S1x128 ![4, 0] · slices_S5x128_S1x128_4_0) : (⟨S5x128, .f32⟩ : BufTy).Contents (Elt F) → (⟨S1x128, .f32⟩ : BufTy).Contents (Elt F)),
    reshape main_v132 main_v133 rfl shapeCasts_S1x128_S128,
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v131 main_v135 main_v136 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v136) main_call4.v0 main_call4.v1 maximumf ]
theorem opsL4_sub : (opsL4 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
theorem opsL4_fresh : (opsL4 : List (HloOp τ sig (Elt F))).Forall fun op => op.fresh = ∅ := by
  simp only [List.Forall]; repeat' constructor

abbrev opsL4_W : List (Ref sig .tc) := [main_v117, main_v118, main_v119, main_c_18, main_v120, main_v121, main_c_19, main_v122, main_v123, main_v124, main_v125, main_v126, main_v127, main_v128, main_cst_20, main_v129, main_v130, main_v131, main_v132, main_v133, main_v134, main_v135, main_v136, main_call4_cst, main_call4_v0, main_v137]
theorem opsL4_writes : (opsL4 : List (HloOp τ sig (Elt F))).Forall fun op => op.writes ⊆ (opsL4_W.map (Proc.devRef (τ := τ) .tc)).toFinset := by
  simp only [List.Forall]; repeat' apply And.intro
  all_goals writes_mem
theorem opsL4_keep (W : Valuation τ sig (Elt F)) {r : Ref sig .tc} (h : r ∉ opsL4_W) :
    after opsL4 W (Proc.devRef .tc r) = W (Proc.devRef .tc r) :=
  after_of_writes_sub opsL4 W opsL4_writes h

abbrev opsEa : List (HloOp τ sig (Elt F)) :=
  [ nullary main_cst_21 (constant S_ .f32 0x00000000#32),
    unary main_cst_21 main_v138 (broadcastInDim S512x128 ![] bcast_S_S512x128 : (⟨S_, .f32⟩ : BufTy).Contents (Elt F) → (⟨S512x128, .f32⟩ : BufTy).Contents (Elt F)),
    unary main_arg2 main_v139 (broadcastInDim S50000x1 ![0] bcast_S50000_S50000x1_0 : (⟨S50000, .i32⟩ : BufTy).Contents (Elt F) → (⟨S50000x1, .i32⟩ : BufTy).Contents (Elt F)),
    ternary main_v138 main_v139 main_v53 main_v140 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_22 (constant S_ .f32 0x00000000#32),
    unary main_cst_22 main_v141 (broadcastInDim S512x128 ![] bcast_S_S512x128 : (⟨S_, .f32⟩ : BufTy).Contents (Elt F) → (⟨S512x128, .f32⟩ : BufTy).Contents (Elt F)),
    unary main_arg2 main_v142 (broadcastInDim S50000x1 ![0] bcast_S50000_S50000x1_0 : (⟨S50000, .i32⟩ : BufTy).Contents (Elt F) → (⟨S50000x1, .i32⟩ : BufTy).Contents (Elt F)),
    ternary main_v141 main_v142 main_v74 main_v143 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_23 (constant S_ .f32 0x00000000#32),
    unary main_cst_23 main_v144 (broadcastInDim S512x128 ![] bcast_S_S512x128 : (⟨S_, .f32⟩ : BufTy).Contents (Elt F) → (⟨S512x128, .f32⟩ : BufTy).Contents (Elt F)),
    unary main_arg2 main_v145 (broadcastInDim S50000x1 ![0] bcast_S50000_S50000x1_0 : (⟨S50000, .i32⟩ : BufTy).Contents (Elt F) → (⟨S50000x1, .i32⟩ : BufTy).Contents (Elt F)),
    ternary main_v144 main_v145 main_v95 main_v146 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_24 (constant S_ .f32 0x00000000#32),
    unary main_cst_24 main_v147 (broadcastInDim S512x128 ![] bcast_S_S512x128 : (⟨S_, .f32⟩ : BufTy).Contents (Elt F) → (⟨S512x128, .f32⟩ : BufTy).Contents (Elt F)),
    unary main_arg2 main_v148 (broadcastInDim S50000x1 ![0] bcast_S50000_S50000x1_0 : (⟨S50000, .i32⟩ : BufTy).Contents (Elt F) → (⟨S50000x1, .i32⟩ : BufTy).Contents (Elt F)),
    ternary main_v147 main_v148 main_v116 main_v149 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_25 (constant S_ .f32 0x00000000#32),
    unary main_cst_25 main_v150 (broadcastInDim S512x128 ![] bcast_S_S512x128 : (⟨S_, .f32⟩ : BufTy).Contents (Elt F) → (⟨S512x128, .f32⟩ : BufTy).Contents (Elt F)),
    unary main_arg2 main_v151 (broadcastInDim S50000x1 ![0] bcast_S50000_S50000x1_0 : (⟨S50000, .i32⟩ : BufTy).Contents (Elt F) → (⟨S50000x1, .i32⟩ : BufTy).Contents (Elt F)) ]
theorem opsEa_sub : (opsEa : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub ..⟩
theorem opsEa_fresh : (opsEa : List (HloOp τ sig (Elt F))).Forall fun op => op.fresh = ∅ := by
  simp only [List.Forall]; repeat' constructor

abbrev opsEa_W : List (Ref sig .tc) := [main_cst_21, main_v138, main_v139, main_v140, main_cst_22, main_v141, main_v142, main_v143, main_cst_23, main_v144, main_v145, main_v146, main_cst_24, main_v147, main_v148, main_v149, main_cst_25, main_v150, main_v151]
theorem opsEa_writes : (opsEa : List (HloOp τ sig (Elt F))).Forall fun op => op.writes ⊆ (opsEa_W.map (Proc.devRef (τ := τ) .tc)).toFinset := by
  simp only [List.Forall]; repeat' apply And.intro
  all_goals writes_mem
theorem opsEa_keep (W : Valuation τ sig (Elt F)) {r : Ref sig .tc} (h : r ∉ opsEa_W) :
    after opsEa W (Proc.devRef .tc r) = W (Proc.devRef .tc r) :=
  after_of_writes_sub opsEa W opsEa_writes h

abbrev opsEb : List (HloOp τ sig (Elt F)) :=
  [ ternary main_v150 main_v151 main_v137 main_v152 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nary ![main_v140, main_v143, main_v146, main_v149, main_v152] main_v153 (fun u => concatenate S512x640 1 [⟨S512x128, u 0⟩, ⟨S512x128, u 1⟩, ⟨S512x128, u 2⟩, ⟨S512x128, u 3⟩, ⟨S512x128, u 4⟩] concatenates_S512x128_S512x128_S512x128_S512x128_S512x128_S512x640_d1) ]
theorem opsEb_sub : (opsEb : List (HloOp τ sig (Elt F))).Forall fun op => op.bufs ⊆ tcRefs τ sig :=
  ⟨ternary_bufs_sub .., nary_bufs_sub ..⟩
theorem opsEb_fresh : (opsEb : List (HloOp τ sig (Elt F))).Forall fun op => op.fresh = ∅ := by
  simp only [List.Forall]; repeat' constructor

abbrev opsEb_W : List (Ref sig .tc) := [main_v152, main_v153]
theorem opsEb_writes : (opsEb : List (HloOp τ sig (Elt F))).Forall fun op => op.writes ⊆ (opsEb_W.map (Proc.devRef (τ := τ) .tc)).toFinset := by
  simp only [List.Forall]; repeat' apply And.intro
  all_goals writes_mem
theorem opsEb_keep (W : Valuation τ sig (Elt F)) {r : Ref sig .tc} (h : r ∉ opsEb_W) :
    after opsEb W (Proc.devRef .tc r) = W (Proc.devRef .tc r) :=
  after_of_writes_sub opsEb W opsEb_writes h

abbrev ops : List (HloOp τ sig (Elt F)) :=
  (opsP ++ opsL0a) ++ ((opsL0b ++ (opsL1 ++ (opsL2 ++ opsL3a))) ++ ((opsL3b ++ (opsL4 ++ opsEa)) ++ opsEb))

set_option maxHeartbeats 4000000 in
theorem part0_eq (d : Dev nD) : main_part0 (F := F) d = seq (opsP ++ opsL0a) := rfl
set_option maxHeartbeats 4000000 in
theorem part1_eq (d : Dev nD) : main_part1 (F := F) d = seq (opsL0b ++ (opsL1 ++ (opsL2 ++ opsL3a))) := rfl
set_option maxHeartbeats 4000000 in
theorem part2_eq (d : Dev nD) : main_part2 (F := F) d = seq (opsL3b ++ (opsL4 ++ opsEa)) := rfl
theorem part3_eq (d : Dev nD) : main_part3 (F := F) d = seq opsEb := rfl

theorem main_eq (d : Dev nD) : main (F := F) d = seq ops := by
  have h : main (F := F) d = (main_part0 d >>= fun _ => main_part1 d >>= fun _ => main_part2 d >>= fun _ => main_part3 d) := rfl
  rw [h, part0_eq, part1_eq, part2_eq, part3_eq]
  show _ = seq ((opsP ++ opsL0a) ++ ((opsL0b ++ (opsL1 ++ (opsL2 ++ opsL3a))) ++ ((opsL3b ++ (opsL4 ++ opsEa)) ++ opsEb)))
  rw [seq_append (opsP ++ opsL0a), seq_append (opsL0b ++ (opsL1 ++ (opsL2 ++ opsL3a))), seq_append (opsL3b ++ (opsL4 ++ opsEa))]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append opsP_sub opsL0a_sub) (forall_append (forall_append opsL0b_sub (forall_append opsL1_sub (forall_append opsL2_sub opsL3a_sub)))
    (forall_append (forall_append opsL3b_sub (forall_append opsL4_sub opsEa_sub)) opsEb_sub))

theorem ops_fresh : ∀ op ∈ (ops : List (HloOp τ sig (Elt F))), op.fresh = ∅ :=
  List.forall_iff_forall_mem.mp (forall_append (forall_append opsP_fresh opsL0a_fresh) (forall_append (forall_append opsL0b_fresh (forall_append opsL1_fresh (forall_append opsL2_fresh opsL3a_fresh)))
    (forall_append (forall_append opsL3b_fresh (forall_append opsL4_fresh opsEa_fresh)) opsEb_fresh)))

theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

theorem nary5_result {x a b c e y : Ref sig .tc}
    (f : ((k : Fin 5) → ((![x, a, b, c, e] : Fin 5 → Ref sig .tc) k).ty.Contents (Elt F)) → y.ty.Contents (Elt F)) (hxs hy)
    (V : Valuation τ sig (Elt F)) :
    (nary (τ := τ) ![x, a, b, c, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [nary_result]; congr 1; funext k; fin_cases k <;> rfl

theorem stP_src (W : Valuation τ sig (Elt F)) : after opsP W (Proc.devRef .tc main_v3) = Cert.Spec.srcOf (W main_arg1) := by
  after_results_simp
  rfl

theorem stP_dst (W : Valuation τ sig (Elt F)) : after opsP W (Proc.devRef .tc main_v6) = Cert.Spec.dstOf (W main_arg1) := by
  after_results_simp
  rfl

theorem stP_nrm (W : Valuation τ sig (Elt F)) : after opsP W (Proc.devRef .tc main_v32) = Cert.Spec.nrm Cert.Spec.wrapIdx (W main_arg1) := by
  after_results_simp
  rfl

theorem stL0 (W : Valuation τ sig (Elt F)) :
    after opsL0b (after opsL0a W) (Proc.devRef .tc main_v53)
      = Cert.Spec.layer (W main_arg0) (Cert.Spec.wOf0 (W main_arg3)) (Cert.Spec.bOf0 (W main_arg4)) (W main_v3) (W main_v6) (W main_v32) := by
  rw [← after_append]
  simp only [List.cons_append, List.nil_append]
  after_results_simp
  rfl

theorem stL1 (W : Valuation τ sig (Elt F)) :
    after opsL1 W (Proc.devRef .tc main_v74)
      = Cert.Spec.layer (W main_v53) (Cert.Spec.wOf1 (W main_arg3)) (Cert.Spec.bOf1 (W main_arg4)) (W main_v3) (W main_v6) (W main_v32) := by
  after_results_simp
  rfl

theorem stL2 (W : Valuation τ sig (Elt F)) :
    after opsL2 W (Proc.devRef .tc main_v95)
      = Cert.Spec.layer (W main_v74) (Cert.Spec.wOf2 (W main_arg3)) (Cert.Spec.bOf2 (W main_arg4)) (W main_v3) (W main_v6) (W main_v32) := by
  after_results_simp
  rfl

theorem stL3 (W : Valuation τ sig (Elt F)) :
    after opsL3b (after opsL3a W) (Proc.devRef .tc main_v116)
      = Cert.Spec.layer (W main_v95) (Cert.Spec.wOf3 (W main_arg3)) (Cert.Spec.bOf3 (W main_arg4)) (W main_v3) (W main_v6) (W main_v32) := by
  rw [← after_append]
  simp only [List.cons_append, List.nil_append]
  after_results_simp
  rfl

theorem stL4 (W : Valuation τ sig (Elt F)) :
    after opsL4 W (Proc.devRef .tc main_v137)
      = Cert.Spec.layer (W main_v116) (Cert.Spec.wOf4 (W main_arg3)) (Cert.Spec.bOf4 (W main_arg4)) (W main_v3) (W main_v6) (W main_v32) := by
  after_results_simp
  rfl

theorem stE (W : Valuation τ sig (Elt F)) :
    after opsEb (after opsEa W) (Proc.devRef .tc main_v153)
      = Cert.Spec.catOf (Cert.Spec.poolOf (W main_v53) (W main_arg2)) (Cert.Spec.poolOf (W main_v74) (W main_arg2)) (Cert.Spec.poolOf (W main_v95) (W main_arg2))
          (Cert.Spec.poolOf (W main_v116) (W main_arg2)) (Cert.Spec.poolOf (W main_v137) (W main_arg2)) := by
  rw [← after_append]
  simp (disch := decide) only [List.cons_append, List.nil_append, after_cons, after_nil, nary5_result,
    nullary_result', unary_result', ternary_result', nullary_result_ne', unary_result_ne', ternary_result_ne', nary_result_ne']
  rfl

abbrev W1 (W : Valuation τ sig (Elt F)) : Valuation τ sig (Elt F) := after opsP W
abbrev W2 (W : Valuation τ sig (Elt F)) : Valuation τ sig (Elt F) := after opsL0b (after opsL0a (W1 W))
abbrev W3 (W : Valuation τ sig (Elt F)) : Valuation τ sig (Elt F) := after opsL1 (W2 W)
abbrev W4 (W : Valuation τ sig (Elt F)) : Valuation τ sig (Elt F) := after opsL2 (W3 W)
abbrev W5 (W : Valuation τ sig (Elt F)) : Valuation τ sig (Elt F) := after opsL3b (after opsL3a (W4 W))
abbrev W6 (W : Valuation τ sig (Elt F)) : Valuation τ sig (Elt F) := after opsL4 (W5 W)
abbrev W7 (W : Valuation τ sig (Elt F)) : Valuation τ sig (Elt F) := after opsEb (after opsEa (W6 W))

theorem after_ops_eq (W : Valuation τ sig (Elt F)) : after ops W = W7 W := by
  simp only [ops, after_append]

structure Base (W W' : Valuation τ sig (Elt F)) : Prop where
  src : W' (Proc.devRef .tc main_v3) = Cert.Spec.srcOf (W (Proc.devRef .tc main_arg1))
  dst : W' (Proc.devRef .tc main_v6) = Cert.Spec.dstOf (W (Proc.devRef .tc main_arg1))
  nrm : W' (Proc.devRef .tc main_v32) = Cert.Spec.nrm Cert.Spec.wrapIdx (W (Proc.devRef .tc main_arg1))
  a0 : W' (Proc.devRef .tc main_arg0) = W (Proc.devRef .tc main_arg0)
  a1 : W' (Proc.devRef .tc main_arg1) = W (Proc.devRef .tc main_arg1)
  a2 : W' (Proc.devRef .tc main_arg2) = W (Proc.devRef .tc main_arg2)
  a3 : W' (Proc.devRef .tc main_arg3) = W (Proc.devRef .tc main_arg3)
  a4 : W' (Proc.devRef .tc main_arg4) = W (Proc.devRef .tc main_arg4)

theorem Base.step {W W' : Valuation τ sig (Elt F)} (B : Base W W') (l : List (HloOp τ sig (Elt F))) (Wl : List (Ref sig .tc))
    (hw : l.Forall fun op => op.writes ⊆ (Wl.map (Proc.devRef (τ := τ) .tc)).toFinset)
    (h3 : main_v3 ∉ Wl) (h6 : main_v6 ∉ Wl) (h32 : main_v32 ∉ Wl) (h0 : main_arg0 ∉ Wl) (h1 : main_arg1 ∉ Wl)
    (h2 : main_arg2 ∉ Wl) (h3' : main_arg3 ∉ Wl) (h4 : main_arg4 ∉ Wl) : Base W (after l W') :=
  ⟨(after_of_writes_sub l W' hw h3).trans B.src, (after_of_writes_sub l W' hw h6).trans B.dst, (after_of_writes_sub l W' hw h32).trans B.nrm,
   (after_of_writes_sub l W' hw h0).trans B.a0, (after_of_writes_sub l W' hw h1).trans B.a1, (after_of_writes_sub l W' hw h2).trans B.a2,
   (after_of_writes_sub l W' hw h3').trans B.a3, (after_of_writes_sub l W' hw h4).trans B.a4⟩

theorem base1 (W : Valuation τ sig (Elt F)) : Base W (W1 W) :=
  ⟨stP_src W, stP_dst W, stP_nrm W, opsP_keep W (by decide), opsP_keep W (by decide), opsP_keep W (by decide), opsP_keep W (by decide), opsP_keep W (by decide)⟩
theorem base2 (W : Valuation τ sig (Elt F)) : Base W (W2 W) := (((base1 W).step opsL0a opsL0a_W opsL0a_writes (by decide) (by decide) (by decide) (by decide) (by decide) (by decide) (by decide) (by decide)).step opsL0b opsL0b_W opsL0b_writes (by decide) (by decide) (by decide) (by decide) (by decide) (by decide) (by decide) (by decide))
theorem base3 (W : Valuation τ sig (Elt F)) : Base W (W3 W) := ((base2 W).step opsL1 opsL1_W opsL1_writes (by decide) (by decide) (by decide) (by decide) (by decide) (by decide) (by decide) (by decide))
theorem base4 (W : Valuation τ sig (Elt F)) : Base W (W4 W) := ((base3 W).step opsL2 opsL2_W opsL2_writes (by decide) (by decide) (by decide) (by decide) (by decide) (by decide) (by decide) (by decide))
theorem base5 (W : Valuation τ sig (Elt F)) : Base W (W5 W) := (((base4 W).step opsL3a opsL3a_W opsL3a_writes (by decide) (by decide) (by decide) (by decide) (by decide) (by decide) (by decide) (by decide)).step opsL3b opsL3b_W opsL3b_writes (by decide) (by decide) (by decide) (by decide) (by decide) (by decide) (by decide) (by decide))
theorem base6 (W : Valuation τ sig (Elt F)) : Base W (W6 W) := ((base5 W).step opsL4 opsL4_W opsL4_writes (by decide) (by decide) (by decide) (by decide) (by decide) (by decide) (by decide) (by decide))
theorem base7 (W : Valuation τ sig (Elt F)) : Base W (W7 W) := (((base6 W).step opsEa opsEa_W opsEa_writes (by decide) (by decide) (by decide) (by decide) (by decide) (by decide) (by decide) (by decide)).step opsEb opsEb_W opsEb_writes (by decide) (by decide) (by decide) (by decide) (by decide) (by decide) (by decide) (by decide))

theorem feat1 (W : Valuation τ sig (Elt F)) : W2 W (Proc.devRef .tc main_v53) = Cert.Spec.h1 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := by
  show after opsL0b (after opsL0a (W1 W)) (Proc.devRef .tc main_v53) = _
  rw [stL0, (base1 W).a0, (base1 W).a3, (base1 W).a4, (base1 W).src, (base1 W).dst, (base1 W).nrm]
  rfl

theorem feat2 (W : Valuation τ sig (Elt F)) : W3 W (Proc.devRef .tc main_v74) = Cert.Spec.h2 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := by
  show after opsL1 (W2 W) (Proc.devRef .tc main_v74) = _
  rw [stL1, feat1 W, (base2 W).a3, (base2 W).a4, (base2 W).src, (base2 W).dst, (base2 W).nrm]
  rfl

theorem keep53_3 (W : Valuation τ sig (Elt F)) : W3 W (Proc.devRef .tc main_v53) = Cert.Spec.h1 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := (opsL1_keep (W2 W) (by decide)).trans (feat1 W)

theorem feat3 (W : Valuation τ sig (Elt F)) : W4 W (Proc.devRef .tc main_v95) = Cert.Spec.h3 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := by
  show after opsL2 (W3 W) (Proc.devRef .tc main_v95) = _
  rw [stL2, feat2 W, (base3 W).a3, (base3 W).a4, (base3 W).src, (base3 W).dst, (base3 W).nrm]
  rfl

theorem keep53_4 (W : Valuation τ sig (Elt F)) : W4 W (Proc.devRef .tc main_v53) = Cert.Spec.h1 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := (opsL2_keep (W3 W) (by decide)).trans (keep53_3 W)
theorem keep74_4 (W : Valuation τ sig (Elt F)) : W4 W (Proc.devRef .tc main_v74) = Cert.Spec.h2 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := (opsL2_keep (W3 W) (by decide)).trans (feat2 W)

theorem feat4 (W : Valuation τ sig (Elt F)) : W5 W (Proc.devRef .tc main_v116) = Cert.Spec.h4 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := by
  show after opsL3b (after opsL3a (W4 W)) (Proc.devRef .tc main_v116) = _
  rw [stL3, feat3 W, (base4 W).a3, (base4 W).a4, (base4 W).src, (base4 W).dst, (base4 W).nrm]
  rfl

theorem keep53_5 (W : Valuation τ sig (Elt F)) : W5 W (Proc.devRef .tc main_v53) = Cert.Spec.h1 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := ((opsL3b_keep (after opsL3a (W4 W)) (by decide)).trans (opsL3a_keep (W4 W) (by decide))).trans (keep53_4 W)
theorem keep74_5 (W : Valuation τ sig (Elt F)) : W5 W (Proc.devRef .tc main_v74) = Cert.Spec.h2 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := ((opsL3b_keep (after opsL3a (W4 W)) (by decide)).trans (opsL3a_keep (W4 W) (by decide))).trans (keep74_4 W)
theorem keep95_5 (W : Valuation τ sig (Elt F)) : W5 W (Proc.devRef .tc main_v95) = Cert.Spec.h3 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := ((opsL3b_keep (after opsL3a (W4 W)) (by decide)).trans (opsL3a_keep (W4 W) (by decide))).trans (feat3 W)

theorem feat5 (W : Valuation τ sig (Elt F)) : W6 W (Proc.devRef .tc main_v137) = Cert.Spec.h5 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := by
  show after opsL4 (W5 W) (Proc.devRef .tc main_v137) = _
  rw [stL4, feat4 W, (base5 W).a3, (base5 W).a4, (base5 W).src, (base5 W).dst, (base5 W).nrm]
  rfl

theorem keep53_6 (W : Valuation τ sig (Elt F)) : W6 W (Proc.devRef .tc main_v53) = Cert.Spec.h1 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := (opsL4_keep (W5 W) (by decide)).trans (keep53_5 W)
theorem keep74_6 (W : Valuation τ sig (Elt F)) : W6 W (Proc.devRef .tc main_v74) = Cert.Spec.h2 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := (opsL4_keep (W5 W) (by decide)).trans (keep74_5 W)
theorem keep95_6 (W : Valuation τ sig (Elt F)) : W6 W (Proc.devRef .tc main_v95) = Cert.Spec.h3 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := (opsL4_keep (W5 W) (by decide)).trans (keep95_5 W)
theorem keep116_6 (W : Valuation τ sig (Elt F)) : W6 W (Proc.devRef .tc main_v116) = Cert.Spec.h4 (Cert.Spec.nrm Cert.Spec.wrapIdx (W (Proc.devRef .tc main_arg1))) (W (Proc.devRef .tc main_arg0)) (W (Proc.devRef .tc main_arg1)) (W (Proc.devRef .tc main_arg3)) (W (Proc.devRef .tc main_arg4)) := (opsL4_keep (W5 W) (by decide)).trans (feat4 W)

theorem result_eq (W : Valuation τ sig (Elt F)) : after ops W (Proc.devRef .tc main_v153) = Cert.Spec.Z (Cert.Spec.nrm Cert.Spec.wrapIdx (W (Proc.devRef .tc main_arg1))) (W (Proc.devRef .tc main_arg0)) (W (Proc.devRef .tc main_arg1)) (W (Proc.devRef .tc main_arg2)) (W (Proc.devRef .tc main_arg3)) (W (Proc.devRef .tc main_arg4)) := by
  rw [after_ops_eq]
  show after opsEb (after opsEa (W6 W)) (Proc.devRef .tc main_v153) = _
  rw [stE, keep53_6, keep74_6, keep95_6, keep116_6, feat5, (base6 W).a2]
  rfl

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v153)
          = Cert.Spec.Z (Cert.Spec.nrm Cert.Spec.wrapIdx (m ((c.tc : Thread nD τ).loc main_arg1))) (m ((c.tc : Thread nD τ).loc main_arg0))
              (m ((c.tc : Thread nD τ).loc main_arg1)) (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v153).trans (result_eq (launchContents m c)),
     (h c main_arg0).trans ((congrFun (after_ops_eq (launchContents m c)) _).trans (base7 (launchContents m c)).a0),
     (h c main_arg1).trans ((congrFun (after_ops_eq (launchContents m c)) _).trans (base7 (launchContents m c)).a1),
     (h c main_arg2).trans ((congrFun (after_ops_eq (launchContents m c)) _).trans (base7 (launchContents m c)).a2),
     (h c main_arg3).trans ((congrFun (after_ops_eq (launchContents m c)) _).trans (base7 (launchContents m c)).a3),
     (h c main_arg4).trans ((congrFun (after_ops_eq (launchContents m c)) _).trans (base7 (launchContents m c)).a4)⟩)
    (run_after m ρ)

end Cert.ReferenceIdeal.HandRun
end
-- ==== Proof.lean ====
import proofs.«160719_j29892972380736_1_alg».proof.Defs
import proofs.«160719_j29892972380736_1_alg».proof.Proof.Gen.Kernel
import proofs.«160719_j29892972380736_1_alg».proof.Proof.Gen.KernelIdeal
import proofs.«160719_j29892972380736_1_alg».proof.Proof.Gen.ReferenceIdeal
import proofs.«160719_j29892972380736_1_alg».proof.Proof.Gen.Pre_finite_inputs
import proofs.«160719_j29892972380736_1_alg».proof.Proof.K.Frame
import proofs.«160719_j29892972380736_1_alg».proof.Proof.KI.Frame
import proofs.«160719_j29892972380736_1_alg».proof.Proof.KI.Named
import proofs.«160719_j29892972380736_1_alg».proof.Proof.KI.Chain
import proofs.«160719_j29892972380736_1_alg».proof.Proof.Val.Dense0
import proofs.«160719_j29892972380736_1_alg».proof.Proof.Val.Dense2
import proofs.«160719_j29892972380736_1_alg».proof.Proof.Val.Dense4
import proofs.«160719_j29892972380736_1_alg».proof.Proof.Val.Dense6
import proofs.«160719_j29892972380736_1_alg».proof.Proof.Val.Dense8
import proofs.«160719_j29892972380736_1_alg».proof.Proof.Val.Act1
import proofs.«160719_j29892972380736_1_alg».proof.Proof.Val.Act3
import proofs.«160719_j29892972380736_1_alg».proof.Proof.Val.Act5
import proofs.«160719_j29892972380736_1_alg».proof.Proof.Val.Act7
import proofs.«160719_j29892972380736_1_alg».proof.Proof.Val.Act9
import proofs.«160719_j29892972380736_1_alg».proof.Proof.NormBridge
import proofs.«160719_j29892972380736_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Rgn.frame m ρ

theorem frame_ki : Cert.frame_KernelIdeal := fun m ρ _ => Cert.KernelIdeal.Rgn.frame m ρ

theorem frame_ri : Cert.frame_ReferenceIdeal := fun m ρ _ =>
  (θ_run Cert.ReferenceIdeal.defs _ _).mono (fun _ h c => (h c).2) (Cert.ReferenceIdeal.HandRun.run m ρ)

theorem algebraic : Cert.algebraic_KernelIdeal_ReferenceIdeal := by
  intro m ρ m' ρ' hpre hagree
  refine ⟨fun c => Cert.KernelIdeal.Gen.V21 m (Cert.KernelIdeal.Rgn.outs m) c Cert.KernelIdeal.main_v139, Cert.KernelIdeal.Rgn.run_named m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2.1, (hagree c).2.2.2.1, (hagree c).2.2.2.2]
  rw [Cert.Bridge.nrm_eq m hpre c]
  exact (Cert.KernelIdeal.Chain.result_eq m c Cert.KernelIdeal.Val.dense0 Cert.KernelIdeal.Val.act1 Cert.KernelIdeal.Val.dense2 Cert.KernelIdeal.Val.act3 Cert.KernelIdeal.Val.dense4
    Cert.KernelIdeal.Val.act5 Cert.KernelIdeal.Val.dense6 Cert.KernelIdeal.Val.act7 Cert.KernelIdeal.Val.dense8 Cert.KernelIdeal.Val.act9).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
